-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x128 .f32) (main_arg10 : FVec F S3x128 .f32) (main_arg11 : FVec F S128x10 .f32) (main_arg12 : FVec F S10 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S128 .f32) (main_arg7 : FVec F S3x128x128 .f32) (main_arg8 : FVec F S3x128 .f32) (main_arg9 : FVec F S3x128 .f32) (main_arg10 : FVec F S3x128 .f32) (main_arg11 : FVec F S128x10 .f32) (main_arg12 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S3x128x128 .f32) (main_arg8 : FVec F S3x128 .f32) (main_arg9 : FVec F S3x128 .f32) (main_arg10 : FVec F S3x128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S1x128x128 : Shape := ⟨3, ![1, 128, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩
abbrev S5000x128 : Shape := ⟨2, ![5000, 128]⟩
abbrev S5000x1 : Shape := ⟨2, ![5000, 1]⟩
abbrev S5000x512 : Shape := ⟨2, ![5000, 512]⟩

abbrev nBuf : Space → Nat
  | .hbm => 230
  | .vmem => 85
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S128x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000, .f32⟩
  | 28 => ⟨S50000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1x128, .f32⟩
  | 66 => ⟨S50000x128, .f32⟩
  | 67 => ⟨S1x128, .f32⟩
  | 68 => ⟨S1x128, .f32⟩
  | 69 => ⟨S128, .f32⟩
  | 70 => ⟨S_, .f32⟩
  | 71 => ⟨S128, .f32⟩
  | 72 => ⟨S128, .f32⟩
  | 73 => ⟨S128, .f32⟩
  | 74 => ⟨S_, .f32⟩
  | 75 => ⟨S128, .f32⟩
  | 76 => ⟨S128, .f32⟩
  | 77 => ⟨S128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S1x128, .f32⟩
  | 85 => ⟨S1x128, .f32⟩
  | 86 => ⟨S1x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S1x128, .f32⟩
  | 105 => ⟨S50000x128, .f32⟩
  | 106 => ⟨S1x128, .f32⟩
  | 107 => ⟨S1x128, .f32⟩
  | 108 => ⟨S128, .f32⟩
  | 109 => ⟨S_, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S1x128, .f32⟩
  | 20 => ⟨S50000x128, .f32⟩
  | 21 => ⟨S1x128, .f32⟩
  | 22 => ⟨S1x128, .f32⟩
  | 23 => ⟨S128, .f32⟩
  | 24 => ⟨S_, .f32⟩
  | 25 => ⟨S128, .f32⟩
  | 26 => ⟨S128, .f32⟩
  | 27 => ⟨S128, .f32⟩
  | 28 => ⟨S_, .f32⟩
  | 29 => ⟨S128, .f32⟩
  | 30 => ⟨S128, .f32⟩
  | 31 => ⟨S128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S1x128, .f32⟩
  | 43 => ⟨S1x128, .f32⟩
  | 44 => ⟨S1x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1x128, .f32⟩
  | 63 => ⟨S50000x128, .f32⟩
  | 64 => ⟨S1x128, .f32⟩
  | 65 => ⟨S1x128, .f32⟩
  | 66 => ⟨S128, .f32⟩
  | 67 => ⟨S_, .f32⟩
  | 68 => ⟨S128, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S128, .f32⟩
  | 76 => ⟨S1x128, .f32⟩
  | 77 => ⟨S128, .f32⟩
  | 78 => ⟨S1x128, .f32⟩
  | 79 => ⟨S128, .f32⟩
  | 80 => ⟨S50000x1, .i32⟩
  | 81 => ⟨S1x128, .f32⟩
  | 82 => ⟨S1x128, .f32⟩
  | 83 => ⟨S1x128, .f32⟩
  | 84 => ⟨S1x128, .f32⟩
  | 85 => ⟨S512x128, .f32⟩
  | 86 => ⟨S_, .f32⟩
  | 87 => ⟨S50000, .f32⟩
  | 88 => ⟨S_, .f32⟩
  | 89 => ⟨S512, .f32⟩
  | 90 => ⟨S50000x1, .i32⟩
  | 91 => ⟨S512, .f32⟩
  | 92 => ⟨S_, .f32⟩
  | 93 => ⟨S512, .f32⟩
  | 94 => ⟨S512, .f32⟩
  | 95 => ⟨S512x1, .f32⟩
  | 96 => ⟨S512x128, .f32⟩
  | 97 => ⟨S512x128, .f32⟩
  | 98 => ⟨S512x10, .f32⟩
  | 99 => ⟨S1x10, .f32⟩
  | 100 => ⟨S512x10, .f32⟩
  | 101 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x1, .f32⟩
  | .local _ .vmem, ⟨70, _⟩ => ⟨S5000x1, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S5000x1, .i32⟩
  | .local _ .vmem, ⟨83, _⟩ => ⟨S5000x1, .i32⟩
  | .local _ .vmem, ⟨84, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_cst : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_c : Ref sig .tc := ⟨.hbm, 29, rfl⟩
abbrev main_call0_v13 : Ref sig .tc := ⟨.hbm, 30, rfl⟩
abbrev main_call0_v14 : Ref sig .tc := ⟨.hbm, 31, rfl⟩
abbrev main_call0_c_2 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_c_3 : Ref sig .tc := ⟨.hbm, 38, rfl⟩
abbrev main_call0_v20 : Ref sig .tc := ⟨.hbm, 39, rfl⟩
abbrev main_call0_v21 : Ref sig .tc := ⟨.hbm, 40, rfl⟩
abbrev main_call0_c_4 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_c_5 : Ref sig .tc := ⟨.hbm, 49, rfl⟩
abbrev main_call0_v29 : Ref sig .tc := ⟨.hbm, 50, rfl⟩
abbrev main_call0_v30 : Ref sig .tc := ⟨.hbm, 51, rfl⟩
abbrev main_call0_c_6 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_cst_7 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43_0 : Ref sig .tc := ⟨.hbm, 66, rfl⟩
abbrev main_call0_v43_1 : Ref sig .tc := ⟨.hbm, 67, rfl⟩
abbrev main_call0_v43_2 : Ref sig .tc := ⟨.hbm, 68, rfl⟩
abbrev main_call0_v44 : Ref sig .tc := ⟨.hbm, 69, rfl⟩
abbrev main_call0_cst_8 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_cst_9 : Ref sig .tc := ⟨.hbm, 74, rfl⟩
abbrev main_call0_v48 : Ref sig .tc := ⟨.hbm, 75, rfl⟩
abbrev main_call0_v49 : Ref sig .tc := ⟨.hbm, 76, rfl⟩
abbrev main_call0_v50 : Ref sig .tc := ⟨.hbm, 77, rfl⟩
abbrev main_call0_v51 : Ref sig .tc := ⟨.hbm, 78, rfl⟩
abbrev main_call0_v52 : Ref sig .tc := ⟨.hbm, 79, rfl⟩
abbrev main_call0_v53 : Ref sig .tc := ⟨.hbm, 80, rfl⟩
abbrev main_call0_v54 : Ref sig .tc := ⟨.hbm, 81, rfl⟩
abbrev main_call0_v55 : Ref sig .tc := ⟨.hbm, 82, rfl⟩
abbrev main_call0_v56 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_c_10 : Ref sig .tc := ⟨.hbm, 88, rfl⟩
abbrev main_call0_v61 : Ref sig .tc := ⟨.hbm, 89, rfl⟩
abbrev main_call0_v62 : Ref sig .tc := ⟨.hbm, 90, rfl⟩
abbrev main_call0_c_11 : Ref sig .tc := ⟨.hbm, 91, rfl⟩
abbrev main_call0_v63 : Ref sig .tc := ⟨.hbm, 92, rfl⟩
abbrev main_call0_v64 : Ref sig .tc := ⟨.hbm, 93, rfl⟩
abbrev main_call0_v65 : Ref sig .tc := ⟨.hbm, 94, rfl⟩
abbrev main_call0_v66 : Ref sig .tc := ⟨.hbm, 95, rfl⟩
abbrev main_call0_v67 : Ref sig .tc := ⟨.hbm, 96, rfl⟩
abbrev main_call0_v68 : Ref sig .tc := ⟨.hbm, 97, rfl⟩
abbrev main_call0_v69 : Ref sig .tc := ⟨.hbm, 98, rfl⟩
abbrev main_call0_v70 : Ref sig .tc := ⟨.hbm, 99, rfl⟩
abbrev main_call0_cst_12 : Ref sig .tc := ⟨.hbm, 100, rfl⟩
abbrev main_call0_v71 : Ref sig .tc := ⟨.hbm, 101, rfl⟩
abbrev main_call0_v72 : Ref sig .tc := ⟨.hbm, 102, rfl⟩
abbrev main_call0_v73 : Ref sig .tc := ⟨.hbm, 103, rfl⟩
abbrev main_call0_v74 : Ref sig .tc := ⟨.hbm, 104, rfl⟩
abbrev main_call0_v75_0 : Ref sig .tc := ⟨.hbm, 105, rfl⟩
abbrev main_call0_v75_1 : Ref sig .tc := ⟨.hbm, 106, rfl⟩
abbrev main_call0_v75_2 : Ref sig .tc := ⟨.hbm, 107, rfl⟩
abbrev main_call0_v76 : Ref sig .tc := ⟨.hbm, 108, rfl⟩
abbrev main_call0_cst_13 : Ref sig .tc := ⟨.hbm, 109, rfl⟩
abbrev main_call0_v77 : Ref sig .tc := ⟨.hbm, 110, rfl⟩
abbrev main_call0_v78 : Ref sig .tc := ⟨.hbm, 111, rfl⟩
abbrev main_call0_v79 : Ref sig .tc := ⟨.hbm, 112, rfl⟩
abbrev main_call0_cst_14 : Ref sig .tc := ⟨.hbm, 113, rfl⟩
abbrev main_call0_v80 : Ref sig .tc := ⟨.hbm, 114, rfl⟩
abbrev main_call0_v81 : Ref sig .tc := ⟨.hbm, 115, rfl⟩
abbrev main_call0_v82 : Ref sig .tc := ⟨.hbm, 116, rfl⟩
abbrev main_call0_v83 : Ref sig .tc := ⟨.hbm, 117, rfl⟩
abbrev main_call0_v84 : Ref sig .tc := ⟨.hbm, 118, rfl⟩
abbrev main_call0_v85 : Ref sig .tc := ⟨.hbm, 119, rfl⟩
abbrev main_call0_v86 : Ref sig .tc := ⟨.hbm, 120, rfl⟩
abbrev main_call0_v87 : Ref sig .tc := ⟨.hbm, 121, rfl⟩
abbrev main_call0_v88 : Ref sig .tc := ⟨.hbm, 122, rfl⟩
abbrev main_call0_v89 : Ref sig .tc := ⟨.hbm, 123, rfl⟩
abbrev main_call0_v90 : Ref sig .tc := ⟨.hbm, 124, rfl⟩
abbrev main_call0_v91 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_v95 : Ref sig .tc := ⟨.hbm, 129, rfl⟩
abbrev main_call0_v96 : Ref sig .tc := ⟨.hbm, 130, rfl⟩
abbrev main_call0_c_15 : Ref sig .tc := ⟨.hbm, 131, rfl⟩
abbrev main_call0_v97 : Ref sig .tc := ⟨.hbm, 132, rfl⟩
abbrev main_call0_v98 : Ref sig .tc := ⟨.hbm, 133, rfl⟩
abbrev main_call0_c_16 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_v102 : Ref sig .tc := ⟨.hbm, 138, rfl⟩
abbrev main_call0_v103 : Ref sig .tc := ⟨.hbm, 139, rfl⟩
abbrev main_call0_v104 : Ref sig .tc := ⟨.hbm, 140, rfl⟩
abbrev main_call0_v105 : Ref sig .tc := ⟨.hbm, 141, rfl⟩
abbrev main_call0_v106 : Ref sig .tc := ⟨.hbm, 142, rfl⟩
abbrev main_call0_cst_17 : Ref sig .tc := ⟨.hbm, 143, rfl⟩
abbrev main_call0_v107 : Ref sig .tc := ⟨.hbm, 144, rfl⟩
abbrev main_call0_v108 : Ref sig .tc := ⟨.hbm, 145, rfl⟩
abbrev main_call0_v109 : Ref sig .tc := ⟨.hbm, 146, rfl⟩
abbrev main_call0_v110 : Ref sig .tc := ⟨.hbm, 147, rfl⟩
abbrev main_call0_v111_0 : Ref sig .tc := ⟨.hbm, 148, rfl⟩
abbrev main_call0_v111_1 : Ref sig .tc := ⟨.hbm, 149, rfl⟩
abbrev main_call0_v111_2 : Ref sig .tc := ⟨.hbm, 150, rfl⟩
abbrev main_call0_v112 : Ref sig .tc := ⟨.hbm, 151, rfl⟩
abbrev main_call0_cst_18 : Ref sig .tc := ⟨.hbm, 152, rfl⟩
abbrev main_call0_v113 : Ref sig .tc := ⟨.hbm, 153, rfl⟩
abbrev main_call0_v114 : Ref sig .tc := ⟨.hbm, 154, rfl⟩
abbrev main_call0_v115 : Ref sig .tc := ⟨.hbm, 155, rfl⟩
abbrev main_call0_cst_19 : Ref sig .tc := ⟨.hbm, 156, rfl⟩
abbrev main_call0_v116 : Ref sig .tc := ⟨.hbm, 157, rfl⟩
abbrev main_call0_v117 : Ref sig .tc := ⟨.hbm, 158, rfl⟩
abbrev main_call0_v118 : Ref sig .tc := ⟨.hbm, 159, rfl⟩
abbrev main_call0_v119 : Ref sig .tc := ⟨.hbm, 160, rfl⟩
abbrev main_call0_v120 : Ref sig .tc := ⟨.hbm, 161, rfl⟩
abbrev main_call0_v121 : Ref sig .tc := ⟨.hbm, 162, rfl⟩
abbrev main_call0_v122 : Ref sig .tc := ⟨.hbm, 163, rfl⟩
abbrev main_call0_v123 : Ref sig .tc := ⟨.hbm, 164, rfl⟩
abbrev main_call0_v124 : Ref sig .tc := ⟨.hbm, 165, rfl⟩
abbrev main_call0_v125 : Ref sig .tc := ⟨.hbm, 166, rfl⟩
abbrev main_call0_v126 : Ref sig .tc := ⟨.hbm, 167, rfl⟩
abbrev main_call0_v127 : Ref sig .tc := ⟨.hbm, 168, rfl⟩
abbrev main_call0_v128 : Ref sig .tc := ⟨.hbm, 169, rfl⟩
abbrev main_call0_v129 : Ref sig .tc := ⟨.hbm, 170, rfl⟩
abbrev main_call0_v130 : Ref sig .tc := ⟨.hbm, 171, rfl⟩
abbrev main_call0_v131 : Ref sig .tc := ⟨.hbm, 172, rfl⟩
abbrev main_call0_v132 : Ref sig .tc := ⟨.hbm, 173, rfl⟩
abbrev main_call0_c_20 : Ref sig .tc := ⟨.hbm, 174, rfl⟩
abbrev main_call0_v133 : Ref sig .tc := ⟨.hbm, 175, rfl⟩
abbrev main_call0_v134 : Ref sig .tc := ⟨.hbm, 176, rfl⟩
abbrev main_call0_c_21 : Ref sig .tc := ⟨.hbm, 177, rfl⟩
abbrev main_call0_v135 : Ref sig .tc := ⟨.hbm, 178, rfl⟩
abbrev main_call0_v136 : Ref sig .tc := ⟨.hbm, 179, rfl⟩
abbrev main_call0_v137 : Ref sig .tc := ⟨.hbm, 180, rfl⟩
abbrev main_call0_v138 : Ref sig .tc := ⟨.hbm, 181, rfl⟩
abbrev main_call0_v139 : Ref sig .tc := ⟨.hbm, 182, rfl⟩
abbrev main_call0_v140 : Ref sig .tc := ⟨.hbm, 183, rfl⟩
abbrev main_call0_v141 : Ref sig .tc := ⟨.hbm, 184, rfl⟩
abbrev main_call0_v142 : Ref sig .tc := ⟨.hbm, 185, rfl⟩
abbrev main_call0_cst_22 : Ref sig .tc := ⟨.hbm, 186, rfl⟩
abbrev main_call0_v143 : Ref sig .tc := ⟨.hbm, 187, rfl⟩
abbrev main_call0_v144 : Ref sig .tc := ⟨.hbm, 188, rfl⟩
abbrev main_call0_v145 : Ref sig .tc := ⟨.hbm, 189, rfl⟩
abbrev main_call0_v146 : Ref sig .tc := ⟨.hbm, 190, rfl⟩
abbrev main_call0_v147_0 : Ref sig .tc := ⟨.hbm, 191, rfl⟩
abbrev main_call0_v147_1 : Ref sig .tc := ⟨.hbm, 192, rfl⟩
abbrev main_call0_v147_2 : Ref sig .tc := ⟨.hbm, 193, rfl⟩
abbrev main_call0_v148 : Ref sig .tc := ⟨.hbm, 194, rfl⟩
abbrev main_call0_cst_23 : Ref sig .tc := ⟨.hbm, 195, rfl⟩
abbrev main_call0_v149 : Ref sig .tc := ⟨.hbm, 196, rfl⟩
abbrev main_call0_v150 : Ref sig .tc := ⟨.hbm, 197, rfl⟩
abbrev main_call0_v151 : Ref sig .tc := ⟨.hbm, 198, rfl⟩
abbrev main_call0_cst_24 : Ref sig .tc := ⟨.hbm, 199, rfl⟩
abbrev main_call0_v152 : Ref sig .tc := ⟨.hbm, 200, rfl⟩
abbrev main_call0_v153 : Ref sig .tc := ⟨.hbm, 201, rfl⟩
abbrev main_call0_v154 : Ref sig .tc := ⟨.hbm, 202, rfl⟩
abbrev main_call0_v155 : Ref sig .tc := ⟨.hbm, 203, rfl⟩
abbrev main_call0_v156 : Ref sig .tc := ⟨.hbm, 204, rfl⟩
abbrev main_call0_v157 : Ref sig .tc := ⟨.hbm, 205, rfl⟩
abbrev main_call0_v158 : Ref sig .tc := ⟨.hbm, 206, rfl⟩
abbrev main_call0_v159 : Ref sig .tc := ⟨.hbm, 207, rfl⟩
abbrev main_call0_v160 : Ref sig .tc := ⟨.hbm, 208, rfl⟩
abbrev main_call0_v161 : Ref sig .tc := ⟨.hbm, 209, rfl⟩
abbrev main_call0_v162 : Ref sig .tc := ⟨.hbm, 210, rfl⟩
abbrev main_call0_v163 : Ref sig .tc := ⟨.hbm, 211, rfl⟩
abbrev main_call0_v164 : Ref sig .tc := ⟨.hbm, 212, rfl⟩
abbrev main_call0_v165 : Ref sig .tc := ⟨.hbm, 213, rfl⟩
abbrev main_call0_cst_25 : Ref sig .tc := ⟨.hbm, 214, rfl⟩
abbrev main_call0_v166 : Ref sig .tc := ⟨.hbm, 215, rfl⟩
abbrev main_call0_cst_26 : Ref sig .tc := ⟨.hbm, 216, rfl⟩
abbrev main_call0_v167 : Ref sig .tc := ⟨.hbm, 217, rfl⟩
abbrev main_call0_v168 : Ref sig .tc := ⟨.hbm, 218, rfl⟩
abbrev main_call0_v169 : Ref sig .tc := ⟨.hbm, 219, rfl⟩
abbrev main_call0_cst_27 : Ref sig .tc := ⟨.hbm, 220, rfl⟩
abbrev main_call0_v170 : Ref sig .tc := ⟨.hbm, 221, rfl⟩
abbrev main_call0_v171 : Ref sig .tc := ⟨.hbm, 222, rfl⟩
abbrev main_call0_v172 : Ref sig .tc := ⟨.hbm, 223, rfl⟩
abbrev main_call0_v173 : Ref sig .tc := ⟨.hbm, 224, rfl⟩
abbrev main_call0_v174 : Ref sig .tc := ⟨.hbm, 225, rfl⟩
abbrev main_call0_v175 : Ref sig .tc := ⟨.hbm, 226, rfl⟩
abbrev main_call0_v176 : Ref sig .tc := ⟨.hbm, 227, rfl⟩
abbrev main_call0_v177 : Ref sig .tc := ⟨.hbm, 228, rfl⟩
abbrev main_v0 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg6_0 : Ref sig .tc := ⟨.vmem, 63, rfl⟩
abbrev cc6_stg6_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg4_0 : Ref sig .tc := ⟨.vmem, 72, rfl⟩
abbrev cc7_stg4_1 : Ref sig .tc := ⟨.vmem, 73, rfl⟩
abbrev cc7_stg5_0 : Ref sig .tc := ⟨.vmem, 74, rfl⟩
abbrev cc7_stg6_0 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg2_0 : Ref sig .tc := ⟨.vmem, 79, rfl⟩
abbrev cc8_stg3_0 : Ref sig .tc := ⟨.vmem, 80, rfl⟩
abbrev cc8_stg4_0 : Ref sig .tc := ⟨.vmem, 81, rfl⟩
abbrev cc8_stg5_0 : Ref sig .tc := ⟨.vmem, 82, rfl⟩
abbrev cc8_stg5_1 : Ref sig .tc := ⟨.vmem, 83, rfl⟩
abbrev cc8_stg6_0 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem6_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem6_0 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem6_1 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem4_0 : DmaSem sig := 72
abbrev cc7_sem4_1 : DmaSem sig := 73
abbrev cc7_sem5_0 : DmaSem sig := 74
abbrev cc7_sem6_0 : DmaSem sig := 75
abbrev cc8_sem0_0 : DmaSem sig := 76
abbrev cc8_sem0_1 : DmaSem sig := 77
abbrev cc8_sem1_0 : DmaSem sig := 78
abbrev cc8_sem2_0 : DmaSem sig := 79
abbrev cc8_sem3_0 : DmaSem sig := 80
abbrev cc8_sem4_0 : DmaSem sig := 81
abbrev cc8_sem5_0 : DmaSem sig := 82
abbrev cc8_sem5_1 : DmaSem sig := 83
abbrev cc8_sem6_0 : DmaSem sig := 84

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x1 .i32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S512x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S1x128_S128 : S1x128.ShapeCasts S128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000_S50000x1 : S50000.ShapeCasts S50000x1
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S128 : S5000x128.Reduces [0] S128
  shapeCasts_S128x128_S128x128 : S128x128.ShapeCasts S128x128
  inb_S512x128_S512x128_0_0 : ∀ a, (![0, 0] : Fin 2 → Nat) a + S512x128.size a ≤ S512x128.size a
  h_S512x128 : 0 < S512x128.numel
  iota_S5000x512_d1_w32 : S5000x512.Iotas .tc 32 [1]
  broadcasts_S5000x1_S5000x512 : S5000x1.Broadcasts S5000x512
  natLt_1_32 : 1 < 32
  shapeCasts_S512x128_S512x128 : S512x128.ShapeCasts S512x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x1.size a ≤ S50000x1.size a
  hwx8_5 : ∀ i : grid8.Coords, EltTy.bits .i32 = 32 ∨ (Rect.block (s := S50000x1) S5000x1.size (cc8_transform_5 i) (hinb8_5 i)).WholeWords (EltTy.packing .i32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S512x128.size a ≤ S512x128.size a
  hwx8_6 : ∀ i : grid8.Coords, EltTy.bits .f32 = 32 ∨ (Rect.block (s := S512x128) S512x128.size (cc8_transform_6 i) (hinb8_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v43_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v43_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v43_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v53) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v60) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v60) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v75_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_call0_v75_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v75_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_call0_v75_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v89) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v92) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v93) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v94) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v95) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v96) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_call0_v109) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v96) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v110) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v111_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_call0_v111_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v111_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_call0_v111_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v125) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_call0_v128) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v129) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v130) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v131) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v132) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_call0_v145) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v132) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v12) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call0_v146) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v147_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_call0_v147_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v147_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_call0_v147_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v161) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_call0_v162) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v163) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_call0_v164) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_call0_v160) S5000x1.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_call0_v165) S512x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x128x128 : Shape := ⟨3, ![1, 128, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 477
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S128x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x128x128, .f32⟩
  | 119 => ⟨S128x128, .f32⟩
  | 120 => ⟨S1x128, .f32⟩
  | 121 => ⟨S128, .f32⟩
  | 122 => ⟨S1x800000, .i32⟩
  | 123 => ⟨S800000, .i32⟩
  | 124 => ⟨S1x800000, .i32⟩
  | 125 => ⟨S800000, .i32⟩
  | 126 => ⟨S_, .f32⟩
  | 127 => ⟨S800000, .f32⟩
  | _ => ⟨S50000x128, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000, .f32⟩
  | 6 => ⟨S50000, .f32⟩
  | 7 => ⟨S50000, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000, .f32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x1, .f32⟩
  | 38 => ⟨S800000x128, .f32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S1x800000, .i32⟩
  | 108 => ⟨S800000, .i32⟩
  | 109 => ⟨S1x800000, .i32⟩
  | 110 => ⟨S800000, .i32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S50000, .f32⟩
  | 119 => ⟨S50000, .f32⟩
  | 120 => ⟨S50000, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_2 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S1x128, .f32⟩
  | 40 => ⟨S128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S50000x128, .f32⟩
  | 54 => ⟨S50000x128, .f32⟩
  | 55 => ⟨S50000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x128x128, .f32⟩
  | 89 => ⟨S128x128, .f32⟩
  | 90 => ⟨S1x128, .f32⟩
  | 91 => ⟨S128, .f32⟩
  | 92 => ⟨S1x800000, .i32⟩
  | 93 => ⟨S800000, .i32⟩
  | 94 => ⟨S1x800000, .i32⟩
  | 95 => ⟨S800000, .i32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .i32⟩
  | 127 => ⟨S800000, .i32⟩
  | _ => ⟨S50000x128, .f32⟩

abbrev hbmTy0_3 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S800000x1, .f32⟩
  | 8 => ⟨S800000x128, .f32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000, .f32⟩
  | 15 => ⟨S50000x1, .f32⟩
  | 16 => ⟨S50000x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S50000x128, .f32⟩
  | 39 => ⟨S50000x128, .f32⟩
  | 40 => ⟨S50000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S_, .f32⟩
  | 74 => ⟨S512x128, .f32⟩
  | 75 => ⟨S50000x1, .i32⟩
  | 76 => ⟨S512x128, .f32⟩
  | 77 => ⟨S_, .f32⟩
  | 78 => ⟨S50000, .f32⟩
  | 79 => ⟨S_, .f32⟩
  | 80 => ⟨S512, .f32⟩
  | 81 => ⟨S50000x1, .i32⟩
  | 82 => ⟨S512, .f32⟩
  | 83 => ⟨S_, .f32⟩
  | 84 => ⟨S512, .f32⟩
  | 85 => ⟨S512, .f32⟩
  | 86 => ⟨S512x1, .f32⟩
  | 87 => ⟨S512x128, .f32⟩
  | 88 => ⟨S512x128, .f32⟩
  | 89 => ⟨S512x10, .f32⟩
  | 90 => ⟨S1x10, .f32⟩
  | 91 => ⟨S512x10, .f32⟩
  | 92 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_11 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_call1_cst : Ref sig .tc := ⟨.hbm, 115, rfl⟩
abbrev main_call1_v0 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_12 : Ref sig .tc := ⟨.hbm, 126, rfl⟩
abbrev main_v76 : Ref sig .tc := ⟨.hbm, 127, rfl⟩
abbrev main_cst_13 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_14 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_15 : Ref sig .tc := ⟨.hbm, 137, rfl⟩
abbrev main_v84 : Ref sig .tc := ⟨.hbm, 138, rfl⟩
abbrev main_v85 : Ref sig .tc := ⟨.hbm, 139, rfl⟩
abbrev main_c_16 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_c_17 : Ref sig .tc := ⟨.hbm, 146, rfl⟩
abbrev main_v91 : Ref sig .tc := ⟨.hbm, 147, rfl⟩
abbrev main_v92 : Ref sig .tc := ⟨.hbm, 148, rfl⟩
abbrev main_c_18 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_19 : Ref sig .tc := ⟨.hbm, 156, rfl⟩
abbrev main_v99 : Ref sig .tc := ⟨.hbm, 157, rfl⟩
abbrev main_v100 : Ref sig .tc := ⟨.hbm, 158, rfl⟩
abbrev main_c_20 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_21 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_22 : Ref sig .tc := ⟨.hbm, 184, rfl⟩
abbrev main_v124 : Ref sig .tc := ⟨.hbm, 185, rfl⟩
abbrev main_cst_23 : Ref sig .tc := ⟨.hbm, 186, rfl⟩
abbrev main_v125 : Ref sig .tc := ⟨.hbm, 187, rfl⟩
abbrev main_v126 : Ref sig .tc := ⟨.hbm, 188, rfl⟩
abbrev main_c_24 : Ref sig .tc := ⟨.hbm, 189, rfl⟩
abbrev main_call2_cst : Ref sig .tc := ⟨.hbm, 190, rfl⟩
abbrev main_call2_v0 : Ref sig .tc := ⟨.hbm, 191, rfl⟩
abbrev main_call2_v1 : Ref sig .tc := ⟨.hbm, 192, rfl⟩
abbrev main_call2_cst_0 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_v5 : Ref sig .tc := ⟨.hbm, 197, rfl⟩
abbrev main_call2_v6 : Ref sig .tc := ⟨.hbm, 198, rfl⟩
abbrev main_call2_v7 : Ref sig .tc := ⟨.hbm, 199, rfl⟩
abbrev main_call2_cst_1 : Ref sig .tc := ⟨.hbm, 200, rfl⟩
abbrev main_call2_v8 : Ref sig .tc := ⟨.hbm, 201, rfl⟩
abbrev main_call2_cst_2 : Ref sig .tc := ⟨.hbm, 202, rfl⟩
abbrev main_call2_v9 : Ref sig .tc := ⟨.hbm, 203, rfl⟩
abbrev main_call2_v10 : Ref sig .tc := ⟨.hbm, 204, rfl⟩
abbrev main_call2_v11 : Ref sig .tc := ⟨.hbm, 205, rfl⟩
abbrev main_call2_cst_3 : Ref sig .tc := ⟨.hbm, 206, rfl⟩
abbrev main_call2_v12 : Ref sig .tc := ⟨.hbm, 207, rfl⟩
abbrev main_call2_cst_4 : Ref sig .tc := ⟨.hbm, 208, rfl⟩
abbrev main_call2_call0_v0 : Ref sig .tc := ⟨.hbm, 209, rfl⟩
abbrev main_call2_call0_v1 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_25 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_call3_cst : Ref sig .tc := ⟨.hbm, 228, rfl⟩
abbrev main_call3_v0 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_cst_26 : Ref sig .tc := ⟨.hbm, 239, rfl⟩
abbrev main_v152 : Ref sig .tc := ⟨.hbm, 240, rfl⟩
abbrev main_cst_27 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_cst_28 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_c_29 : Ref sig .tc := ⟨.hbm, 250, rfl⟩
abbrev main_v160 : Ref sig .tc := ⟨.hbm, 251, rfl⟩
abbrev main_v161 : Ref sig .tc := ⟨.hbm, 252, rfl⟩
abbrev main_c_30 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_c_31 : Ref sig .tc := ⟨.hbm, 259, rfl⟩
abbrev main_v167 : Ref sig .tc := ⟨.hbm, 260, rfl⟩
abbrev main_v168 : Ref sig .tc := ⟨.hbm, 261, rfl⟩
abbrev main_c_32 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_33 : Ref sig .tc := ⟨.hbm, 269, rfl⟩
abbrev main_v175 : Ref sig .tc := ⟨.hbm, 270, rfl⟩
abbrev main_v176 : Ref sig .tc := ⟨.hbm, 271, rfl⟩
abbrev main_c_34 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_35 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_cst_36 : Ref sig .tc := ⟨.hbm, 297, rfl⟩
abbrev main_v200 : Ref sig .tc := ⟨.hbm, 298, rfl⟩
abbrev main_cst_37 : Ref sig .tc := ⟨.hbm, 299, rfl⟩
abbrev main_v201 : Ref sig .tc := ⟨.hbm, 300, rfl⟩
abbrev main_v202 : Ref sig .tc := ⟨.hbm, 301, rfl⟩
abbrev main_c_38 : Ref sig .tc := ⟨.hbm, 302, rfl⟩
abbrev main_call4_cst : Ref sig .tc := ⟨.hbm, 303, rfl⟩
abbrev main_call4_v0 : Ref sig .tc := ⟨.hbm, 304, rfl⟩
abbrev main_call4_v1 : Ref sig .tc := ⟨.hbm, 305, rfl⟩
abbrev main_call4_cst_0 : Ref sig .tc := ⟨.hbm, 306, rfl⟩
abbrev main_call4_v2 : Ref sig .tc := ⟨.hbm, 307, rfl⟩
abbrev main_call4_v3 : Ref sig .tc := ⟨.hbm, 308, rfl⟩
abbrev main_call4_v4 : Ref sig .tc := ⟨.hbm, 309, rfl⟩
abbrev main_call4_v5 : Ref sig .tc := ⟨.hbm, 310, rfl⟩
abbrev main_call4_v6 : Ref sig .tc := ⟨.hbm, 311, rfl⟩
abbrev main_call4_v7 : Ref sig .tc := ⟨.hbm, 312, rfl⟩
abbrev main_call4_cst_1 : Ref sig .tc := ⟨.hbm, 313, rfl⟩
abbrev main_call4_v8 : Ref sig .tc := ⟨.hbm, 314, rfl⟩
abbrev main_call4_cst_2 : Ref sig .tc := ⟨.hbm, 315, rfl⟩
abbrev main_call4_v9 : Ref sig .tc := ⟨.hbm, 316, rfl⟩
abbrev main_call4_v10 : Ref sig .tc := ⟨.hbm, 317, rfl⟩
abbrev main_call4_v11 : Ref sig .tc := ⟨.hbm, 318, rfl⟩
abbrev main_call4_cst_3 : Ref sig .tc := ⟨.hbm, 319, rfl⟩
abbrev main_call4_v12 : Ref sig .tc := ⟨.hbm, 320, rfl⟩
abbrev main_call4_cst_4 : Ref sig .tc := ⟨.hbm, 321, rfl⟩
abbrev main_call4_call0_v0 : Ref sig .tc := ⟨.hbm, 322, rfl⟩
abbrev main_call4_call0_v1 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_cst_39 : Ref sig .tc := ⟨.hbm, 331, rfl⟩
abbrev main_v210 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_call5_cst : Ref sig .tc := ⟨.hbm, 341, rfl⟩
abbrev main_call5_v0 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_cst_40 : Ref sig .tc := ⟨.hbm, 352, rfl⟩
abbrev main_v228 : Ref sig .tc := ⟨.hbm, 353, rfl⟩
abbrev main_cst_41 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_cst_42 : Ref sig .tc := ⟨.hbm, 358, rfl⟩
abbrev main_v232 : Ref sig .tc := ⟨.hbm, 359, rfl⟩
abbrev main_v233 : Ref sig .tc := ⟨.hbm, 360, rfl⟩
abbrev main_v234 : Ref sig .tc := ⟨.hbm, 361, rfl⟩
abbrev main_v235 : Ref sig .tc := ⟨.hbm, 362, rfl⟩
abbrev main_c_43 : Ref sig .tc := ⟨.hbm, 363, rfl⟩
abbrev main_v236 : Ref sig .tc := ⟨.hbm, 364, rfl⟩
abbrev main_v237 : Ref sig .tc := ⟨.hbm, 365, rfl⟩
abbrev main_c_44 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_c_45 : Ref sig .tc := ⟨.hbm, 372, rfl⟩
abbrev main_v243 : Ref sig .tc := ⟨.hbm, 373, rfl⟩
abbrev main_v244 : Ref sig .tc := ⟨.hbm, 374, rfl⟩
abbrev main_c_46 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_c_47 : Ref sig .tc := ⟨.hbm, 382, rfl⟩
abbrev main_v251 : Ref sig .tc := ⟨.hbm, 383, rfl⟩
abbrev main_v252 : Ref sig .tc := ⟨.hbm, 384, rfl⟩
abbrev main_c_48 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_cst_49 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_cst_50 : Ref sig .tc := ⟨.hbm, 410, rfl⟩
abbrev main_v276 : Ref sig .tc := ⟨.hbm, 411, rfl⟩
abbrev main_cst_51 : Ref sig .tc := ⟨.hbm, 412, rfl⟩
abbrev main_v277 : Ref sig .tc := ⟨.hbm, 413, rfl⟩
abbrev main_v278 : Ref sig .tc := ⟨.hbm, 414, rfl⟩
abbrev main_c_52 : Ref sig .tc := ⟨.hbm, 415, rfl⟩
abbrev main_call6_cst : Ref sig .tc := ⟨.hbm, 416, rfl⟩
abbrev main_call6_v0 : Ref sig .tc := ⟨.hbm, 417, rfl⟩
abbrev main_call6_v1 : Ref sig .tc := ⟨.hbm, 418, rfl⟩
abbrev main_call6_cst_0 : Ref sig .tc := ⟨.hbm, 419, rfl⟩
abbrev main_call6_v2 : Ref sig .tc := ⟨.hbm, 420, rfl⟩
abbrev main_call6_v3 : Ref sig .tc := ⟨.hbm, 421, rfl⟩
abbrev main_call6_v4 : Ref sig .tc := ⟨.hbm, 422, rfl⟩
abbrev main_call6_v5 : Ref sig .tc := ⟨.hbm, 423, rfl⟩
abbrev main_call6_v6 : Ref sig .tc := ⟨.hbm, 424, rfl⟩
abbrev main_call6_v7 : Ref sig .tc := ⟨.hbm, 425, rfl⟩
abbrev main_call6_cst_1 : Ref sig .tc := ⟨.hbm, 426, rfl⟩
abbrev main_call6_v8 : Ref sig .tc := ⟨.hbm, 427, rfl⟩
abbrev main_call6_cst_2 : Ref sig .tc := ⟨.hbm, 428, rfl⟩
abbrev main_call6_v9 : Ref sig .tc := ⟨.hbm, 429, rfl⟩
abbrev main_call6_v10 : Ref sig .tc := ⟨.hbm, 430, rfl⟩
abbrev main_call6_v11 : Ref sig .tc := ⟨.hbm, 431, rfl⟩
abbrev main_call6_cst_3 : Ref sig .tc := ⟨.hbm, 432, rfl⟩
abbrev main_call6_v12 : Ref sig .tc := ⟨.hbm, 433, rfl⟩
abbrev main_call6_cst_4 : Ref sig .tc := ⟨.hbm, 434, rfl⟩
abbrev main_call6_call0_v0 : Ref sig .tc := ⟨.hbm, 435, rfl⟩
abbrev main_call6_call0_v1 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_cst_53 : Ref sig .tc := ⟨.hbm, 444, rfl⟩
abbrev main_v286 : Ref sig .tc := ⟨.hbm, 445, rfl⟩
abbrev main_v287 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_call7_cst : Ref sig .tc := ⟨.hbm, 454, rfl⟩
abbrev main_call7_v0 : Ref sig .tc := ⟨.hbm, 455, rfl⟩
abbrev main_v295 : Ref sig .tc := ⟨.hbm, 456, rfl⟩
abbrev main_cst_54 : Ref sig .tc := ⟨.hbm, 457, rfl⟩
abbrev main_v296 : Ref sig .tc := ⟨.hbm, 458, rfl⟩
abbrev main_v297 : Ref sig .tc := ⟨.hbm, 459, rfl⟩
abbrev main_v298 : Ref sig .tc := ⟨.hbm, 460, rfl⟩
abbrev main_cst_55 : Ref sig .tc := ⟨.hbm, 461, rfl⟩
abbrev main_v299 : Ref sig .tc := ⟨.hbm, 462, rfl⟩
abbrev main_cst_56 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_cst_57 : Ref sig .tc := ⟨.hbm, 467, rfl⟩
abbrev main_v303 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_v310 : Ref sig .tc := ⟨.hbm, 475, rfl⟩
abbrev main_v311 : Ref sig .tc := ⟨.hbm, 476, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨1, ![50000]⟩
abbrev SD : Shape := ⟨1, ![128]⟩
abbrev SND : Shape := ⟨2, ![50000, 128]⟩
abbrev SDD : Shape := ⟨2, ![128, 128]⟩
abbrev SGD : Shape := ⟨2, ![512, 128]⟩
abbrev SN1 : Shape := ⟨2, ![50000, 1]⟩
abbrev S1D : Shape := ⟨2, ![1, 128]⟩
abbrev S3DD : Shape := ⟨3, ![3, 128, 128]⟩
abbrev S3D : Shape := ⟨2, ![3, 128]⟩

def IsRealV {s : Shape} (x : s.Idx → EReal) : Prop := ∀ i, ∃ r : ℝ, x i = (r : EReal)

def eps : EReal := Ideal.ofBits .f32 0x3727C5AC#32

def cN : EReal := Ideal.ofBits .f32 0x47435000#32

def mm (X : SND.Idx → EReal) (W : SDD.Idx → EReal) : SND.Idx → EReal :=
  fun i => ∑ k : Fin 128, X (ix2 (i 0) k) * W (ix2 k (i 1))

def preRow (agg h : SND.Idx → EReal) (d : SN1.Idx → EReal) (b : S1D.Idx → EReal) : SND.Idx → EReal :=
  fun i => agg i + h i * d (ix2 (i 0) 0) + b (ix2 0 (i 1))

def pre (agg h : SND.Idx → EReal) (dinv : SN.Idx → EReal) (b : SD.Idx → EReal) : SND.Idx → EReal :=
  fun i => agg i + h i * (dinv (ix1 (i 0)) * dinv (ix1 (i 0))) + b (ix1 (i 1))

def colsumRow (P : SND.Idx → EReal) : S1D.Idx → EReal := fun j => ∑ n : Fin 50000, P (ix2 n (j 1))

def colsumsqRow (P : SND.Idx → EReal) : S1D.Idx → EReal := fun j => ∑ n : Fin 50000, P (ix2 n (j 1)) * P (ix2 n (j 1))

def muV (P : SND.Idx → EReal) : SD.Idx → EReal := fun j => Ideal.div (∑ n : Fin 50000, P (ix2 n (j 0))) cN

def varK (P : SND.Idx → EReal) : SD.Idx → EReal :=
  fun j => Ideal.div (∑ n : Fin 50000, P (ix2 n (j 0)) * P (ix2 n (j 0))) cN - muV P j * muV P j

def varR (P : SND.Idx → EReal) : SD.Idx → EReal :=
  fun j => Ideal.div (∑ n : Fin 50000, (P (ix2 n (j 0)) - muV P j) * (P (ix2 n (j 0)) - muV P j)) cN

def rowOf (v : SD.Idx → EReal) : S1D.Idx → EReal := fun j => v (ix1 (j 1))

def vecOf (r : S1D.Idx → EReal) : SD.Idx → EReal := fun j => r (ix2 0 (j 0))

def colOf {α : Type} (v : SN.Idx → α) : SN1.Idx → α := fun j => v (ix1 (j 0))

def actRow (P : SND.Idx → EReal) (g be mu var : S1D.Idx → EReal) : SND.Idx → EReal :=
  fun i => max (g (ix2 0 (i 1)) * ((P i - mu (ix2 0 (i 1))) * Ideal.rsqrt (var (ix2 0 (i 1)) + eps)) + be (ix2 0 (i 1))) 0

def act (P : SND.Idx → EReal) (g be mu var : SD.Idx → EReal) : SND.Idx → EReal :=
  fun i => max (g (ix1 (i 1)) * ((P i - mu (ix1 (i 1))) * Ideal.rsqrt (var (ix1 (i 1)) + eps)) + be (ix1 (i 1))) 0

def actR (P : SND.Idx → EReal) (g be mu var : SD.Idx → EReal) : SND.Idx → EReal :=
  fun i => max (g (ix1 (i 1)) * (P i - mu (ix1 (i 1))) * Ideal.rsqrt (var (ix1 (i 1)) + eps) + be (ix1 (i 1))) 0

def poolCol (A : SND.Idx → EReal) (batch : SN1.Idx → BitVec 32) : SGD.Idx → EReal :=
  fun j => ∑ n : Fin 50000, (if batch (ix2 n 0) = BitVec.ofNat 32 (j 0).val then (1 : EReal) else 0) * A (ix2 n (j 1))

def sl3 (Wc : S3DD.Idx → EReal) (k : Fin 3) : SDD.Idx → EReal := fun i => Wc (ix3 k (i 0) (i 1))

def sl2 (bc : S3D.Idx → EReal) (k : Fin 3) : SD.Idx → EReal := fun j => bc (ix2 k (j 0))

structure Ctx where
  dinv : SN.Idx → EReal
  agg : (SND.Idx → EReal) → SND.Idx → EReal

def layer (κ : Ctx) (X : SND.Idx → EReal) (W : SDD.Idx → EReal) (b : SD.Idx → EReal) : SND.Idx → EReal :=
  pre (κ.agg (mm X W)) (mm X W) κ.dinv b

def bnK (P : SND.Idx → EReal) (g be : SD.Idx → EReal) : SND.Idx → EReal := act P g be (muV P) (varK P)

def bnR (P : SND.Idx → EReal) (g be : SD.Idx → EReal) : SND.Idx → EReal := actR P g be (muV P) (varR P)

def netK (κ : Ctx) (x : SND.Idx → EReal) (W1 : SDD.Idx → EReal) (b1 g1 be1 : SD.Idx → EReal)
    (Wc : S3DD.Idx → EReal) (bc gc bec : S3D.Idx → EReal) : SND.Idx → EReal :=
  bnK (layer κ (bnK (layer κ (bnK (layer κ (bnK (layer κ x W1 b1) g1 be1) (sl3 Wc 0) (sl2 bc 0)) (sl2 gc 0) (sl2 bec 0))
    (sl3 Wc 1) (sl2 bc 1)) (sl2 gc 1) (sl2 bec 1)) (sl3 Wc 2) (sl2 bc 2)) (sl2 gc 2) (sl2 bec 2)

def netR (κ : Ctx) (x : SND.Idx → EReal) (W1 : SDD.Idx → EReal) (b1 g1 be1 : SD.Idx → EReal)
    (Wc : S3DD.Idx → EReal) (bc gc bec : S3D.Idx → EReal) : SND.Idx → EReal :=
  bnR (layer κ (bnR (layer κ (bnR (layer κ (bnR (layer κ x W1 b1) g1 be1) (sl3 Wc 0) (sl2 bc 0)) (sl2 gc 0) (sl2 bec 0))
    (sl3 Wc 1) (sl2 bc 1)) (sl2 gc 1) (sl2 bec 1)) (sl3 Wc 2) (sl2 bc 2)) (sl2 gc 2) (sl2 bec 2)

theorem actRow_rowOf (P : SND.Idx → EReal) (g be mu var : SD.Idx → EReal) :
    actRow P (rowOf g) (rowOf be) (rowOf mu) (rowOf var) = act P g be mu var := rfl

theorem preRow_colOf (agg h : SND.Idx → EReal) (dinv : SN.Idx → EReal) (b : SD.Idx → EReal) :
    preRow agg h (colOf fun n => dinv n * dinv n) (rowOf b) = pre agg h dinv b := rfl

end Cert.Spec

end
-- ==== Proof.KCtx.lean ====
import proofs.«401582_j39573828665766_2_alg».proof.KernelIdeal
import proofs.«401582_j39573828665766_2_alg».proof.Proof.Spec

noncomputable section

namespace Cert.KernelIdeal.KCtx

open Idealize.ShloMosaic Idealize.SL.Sem
open Cert.KernelIdeal Cert.KernelIdeal.Facts₀ Cert.KernelIdeal.Facts

variable [Cert.KernelIdeal.Facts]

def src (e : IVec S2x800000 32) : IVec S800000 32 :=
  shapeCast S800000 (extractStridedSlice S1x800000 ![0, 0] e slices_S2x800000_S1x800000_0_0) shapeCasts_S1x800000_S800000

def dst (e : IVec S2x800000 32) : IVec S800000 32 :=
  shapeCast S800000 (extractStridedSlice S1x800000 ![1, 0] e slices_S2x800000_S1x800000_1_0) shapeCasts_S1x800000_S800000

def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def degOf (d : IVec S800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

def dinvOf (d : IVec S800000 32) : FVec Ideal S50000 .f32 :=
  Host.rsqrt (addf (degOf d) (broadcastInDim S50000 ![] bcast_S_S50000 (constant S_ .f32 0x3F800000#32)))

def dinv (e : IVec S2x800000 32) : FVec Ideal S50000 .f32 := dinvOf (dst e)

def d2col (e : IVec S2x800000 32) : FVec Ideal S50000x1 .f32 :=
  broadcastInDim S50000x1 ![0] bcast_S50000_S50000x1_0 (mulf (dinv e) (dinv e))

def normOf (s d : IVec S800000 32) (dv : FVec Ideal S50000 .f32) : FVec Ideal S800000 .f32 :=
  mulf (Host.gather gather_S50000_S800000x1_S800000_n_0_n_n_0_1_1 dv (wrapCol s))
       (Host.gather gather_S50000_S800000x1_S800000_n_0_n_n_0_1_1 dv (wrapCol d))

def norm (e : IVec S2x800000 32) : FVec Ideal S800000 .f32 := normOf (src e) (dst e) (dinv e)

def aggOf (s d : IVec S800000 32) (nrm : FVec Ideal S800000 .f32) (h : FVec Ideal S50000x128 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf (Host.gather gather_S50000x128_S800000x1_S800000x128_1_0_n_n_0_1_1128 h (wrapCol s))
      (broadcastInDim S800000x128 ![0, 1] bcast_S800000x1_S800000x128_0_1
        (broadcastInDim S800000x1 ![0] bcast_S800000_S800000x1_0 nrm)))

def agg (e : IVec S2x800000 32) (h : FVec Ideal S50000x128 .f32) : FVec Ideal S50000x128 .f32 :=
  aggOf (src e) (dst e) (norm e) h

def ctx (e : IVec S2x800000 32) : Cert.Spec.Ctx := ⟨dinv e, agg e⟩

def bRow (b : FVec Ideal S128 .f32) : FVec Ideal S1x128 .f32 := shapeCast S1x128 b shapeCasts_S128_S1x128

def meanOf (s : FVec Ideal S1x128 .f32) : FVec Ideal S128 .f32 :=
  Host.divf (shapeCast S128 s shapeCasts_S1x128_S128)
    (broadcastInDim S128 ![] bcast_S_S128 (constant S_ .f32 0x47435000#32))

def varOf (s ss : FVec Ideal S1x128 .f32) : FVec Ideal S128 .f32 :=
  subf (Host.divf (shapeCast S128 ss shapeCasts_S1x128_S128)
      (broadcastInDim S128 ![] bcast_S_S128 (constant S_ .f32 0x47435000#32)))
    (mulf (meanOf s) (meanOf s))

theorem slices3 (k : Fin 3) : S3x128x128.Slices ![k.val, 0, 0] S1x128x128 := by
  fin_cases k
  · exact slices_S3x128x128_S1x128x128_0_0_0
  · exact slices_S3x128x128_S1x128x128_1_0_0
  · exact slices_S3x128x128_S1x128x128_2_0_0

theorem slices2 (k : Fin 3) : S3x128.Slices ![k.val, 0] S1x128 := by
  fin_cases k
  · exact slices_S3x128_S1x128_0_0
  · exact slices_S3x128_S1x128_1_0
  · exact slices_S3x128_S1x128_2_0

def wSlice (k : Fin 3) (Wc : FVec Ideal S3x128x128 .f32) : FVec Ideal S128x128 .f32 :=
  shapeCast S128x128 (extractStridedSlice S1x128x128 ![k.val, 0, 0] Wc (slices3 k)) shapeCasts_S1x128x128_S128x128

def vSlice (k : Fin 3) (bc : FVec Ideal S3x128 .f32) : FVec Ideal S128 .f32 :=
  shapeCast S128 (extractStridedSlice S1x128 ![k.val, 0] bc (slices2 k)) shapeCasts_S1x128_S128

def batchCol (batch : IVec S50000 32) : IVec S50000x1 32 := shapeCast S50000x1 batch shapeCasts_S50000_S50000x1

def countOf (batch : IVec S50000 32) : FVec Ideal S512 .f32 :=
  maximumf
    (Host.scatterAdd scatter_S512_S50000x1_S50000_n_0_0_1
      (broadcastInDim S512 ![] bcast_S_S512 (constant S_ .f32 0x00000000#32))
      (broadcastInDim S50000x1 ![0] bcast_S50000_S50000x1_0 batch)
      (broadcastInDim S50000 ![] bcast_S_S50000 (constant S_ .f32 0x3F800000#32)))
    (broadcastInDim S512 ![] bcast_S_S512 (constant S_ .f32 0x3F800000#32))

def tail (batch : IVec S50000 32) (Wl : FVec Ideal S128x10 .f32) (bl : FVec Ideal S10 .f32)
    (sums : FVec Ideal S512x128 .f32) : FVec Ideal S512x10 .f32 :=
  addf
    (Host.dotGeneral dot_S512x128_S128x10_S512x10_1_0_0_1_n_n none
      (Host.divf sums
        (broadcastInDim S512x128 ![0, 1] bcast_S512x1_S512x128_0_1
          (broadcastInDim S512x1 ![0] bcast_S512_S512x1_0 (countOf batch))))
      Wl)
    (broadcastInDim S512x10 ![0, 1] bcast_S1x10_S512x10_0_1 (broadcastInDim S1x10 ![1] bcast_S10_S1x10_1 bl))

end Cert.KernelIdeal.KCtx

end
-- ==== Proof.KHostB.lean ====
import proofs.«401582_j39573828665766_2_alg».proof.Proof.Gen.KernelIdeal.Launch
import proofs.«401582_j39573828665766_2_alg».proof.Proof.KCtx
import proofs.«401582_j39573828665766_2_alg».proof.Proof.Spec
import Idealize.ShloMosaic.Lib.StableHlo.Run

noncomputable section

namespace Cert.KernelIdeal.KHost

open Idealize.ShloMosaic Idealize.SL.Sem
open Cert.KernelIdeal Cert.KernelIdeal.Gen

variable (W : Valuation τ sig (Elt Ideal))

theorem h5_v109 :
    StableHlo.after hostOps5 W (Proc.devRef .tc main_call0_v109) = KCtx.aggOf (W (Proc.devRef .tc main_call0_v1)) (W (Proc.devRef .tc main_call0_v3)) (W (Proc.devRef .tc main_call0_v27)) (W (Proc.devRef .tc main_call0_v96)) := by
  after_results_simp
  rfl

theorem h5_v110 :
    StableHlo.after hostOps5 W (Proc.devRef .tc main_call0_v110) = KCtx.bRow (W (Proc.devRef .tc main_call0_v91)) := by
  after_results_simp
  rfl

theorem h6_v125 :
    StableHlo.after hostOps6 W (Proc.devRef .tc main_call0_v125) = KCtx.wSlice 2 (W (Proc.devRef .tc main_arg7)) := by
  after_results_simp
  rfl

theorem h6_v127 :
    StableHlo.after hostOps6 W (Proc.devRef .tc main_call0_v127) = KCtx.vSlice 2 (W (Proc.devRef .tc main_arg8)) := by
  after_results_simp
  rfl

theorem h6_v128 :
    StableHlo.after hostOps6 W (Proc.devRef .tc main_call0_v128) = KCtx.bRow (KCtx.vSlice 1 (W (Proc.devRef .tc main_arg9))) := by
  after_results_simp
  rfl

theorem h6_v129 :
    StableHlo.after hostOps6 W (Proc.devRef .tc main_call0_v129) = KCtx.bRow (KCtx.vSlice 1 (W (Proc.devRef .tc main_arg10))) := by
  after_results_simp
  rfl

theorem h6_v130 :
    StableHlo.after hostOps6 W (Proc.devRef .tc main_call0_v130) = KCtx.bRow (KCtx.meanOf (W (Proc.devRef .tc main_call0_v111_1))) := by
  after_results_simp
  rfl

theorem h6_v131 :
    StableHlo.after hostOps6 W (Proc.devRef .tc main_call0_v131) = KCtx.bRow (KCtx.varOf (W (Proc.devRef .tc main_call0_v111_1)) (W (Proc.devRef .tc main_call0_v111_2))) := by
  after_results_simp
  rfl

theorem h7_v145 :
    StableHlo.after hostOps7 W (Proc.devRef .tc main_call0_v145) = KCtx.aggOf (W (Proc.devRef .tc main_call0_v1)) (W (Proc.devRef .tc main_call0_v3)) (W (Proc.devRef .tc main_call0_v27)) (W (Proc.devRef .tc main_call0_v132)) := by
  after_results_simp
  rfl

theorem h7_v146 :
    StableHlo.after hostOps7 W (Proc.devRef .tc main_call0_v146) = KCtx.bRow (W (Proc.devRef .tc main_call0_v127)) := by
  after_results_simp
  rfl

theorem h8_v160 :
    StableHlo.after hostOps8 W (Proc.devRef .tc main_call0_v160) = KCtx.batchCol (W (Proc.devRef .tc main_arg2)) := by
  after_results_simp
  rfl

theorem h8_v161 :
    StableHlo.after hostOps8 W (Proc.devRef .tc main_call0_v161) = KCtx.bRow (KCtx.vSlice 2 (W (Proc.devRef .tc main_arg9))) := by
  after_results_simp
  rfl

theorem h8_v162 :
    StableHlo.after hostOps8 W (Proc.devRef .tc main_call0_v162) = KCtx.bRow (KCtx.vSlice 2 (W (Proc.devRef .tc main_arg10))) := by
  after_results_simp
  rfl

theorem h8_v163 :
    StableHlo.after hostOps8 W (Proc.devRef .tc main_call0_v163) = KCtx.bRow (KCtx.meanOf (W (Proc.devRef .tc main_call0_v147_1))) := by
  after_results_simp
  rfl

theorem h8_v164 :
    StableHlo.after hostOps8 W (Proc.devRef .tc main_call0_v164) = KCtx.bRow (KCtx.varOf (W (Proc.devRef .tc main_call0_v147_1)) (W (Proc.devRef .tc main_call0_v147_2))) := by
  after_results_simp
  rfl

theorem h9_v0 :
    StableHlo.after hostOps9 W (Proc.devRef .tc main_v0) = KCtx.tail (W (Proc.devRef .tc main_arg2)) (W (Proc.devRef .tc main_arg11)) (W (Proc.devRef .tc main_arg12)) (W (Proc.devRef .tc main_call0_v165)) := by
  after_results_simp
  rfl

end Cert.KernelIdeal.KHost

end
-- ==== Proof.KPat.lean ====
import proofs.«401582_j39573828665766_2_alg».proof.Proof.KCtx
import proofs.«401582_j39573828665766_2_alg».proof.Proof.Spec
import Idealize.ShloMosaic.PureOps.Ideal
import Idealize.ShloMosaic.Lib.ValueIdx
import Idealize.ShloMosaic.Lib.ValueLayout
import Idealize.ShloMosaic.Lib.Pipeline.Value

noncomputable section

namespace Cert.KernelIdeal.KPat

open Idealize.ShloMosaic Idealize.ShloMosaic.ValueIdx
open Cert.KernelIdeal Cert.KernelIdeal.Facts₀ Cert.KernelIdeal.Facts

variable [Cert.KernelIdeal.Facts]

section Read
variable {α : Type}

theorem bcast_col_apply (v : S50000.Idx → α) (p : Fin 50000) (u : Fin 1) :
    broadcastInDim S50000x1 ![0] bcast_S50000_S50000x1_0 v (ix2 p u) = v (ix1 p) :=
  broadcastInDim_apply _ _ v _ _ fun a => match a with | ⟨0, _⟩ => rfl

theorem bcast_s128_apply (x : S_.Idx → α) (j : S128.Idx) : broadcastInDim S128 ![] bcast_S_S128 x j = x ix0 :=
  broadcastInDim_apply _ _ x _ _ fun a => a.elim0

theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem wslice_apply (k : ℕ) (hk : k < 3) (Wc : S3x128x128.Idx → α)
    (hs : S3x128x128.Slices ![k, 0, 0] S1x128x128) (a b : Fin 128) :
    shapeCast S128x128 (extractStridedSlice S1x128x128 ![k, 0, 0] Wc hs) shapeCasts_S1x128x128_S128x128 (ix2 a b)
      = Wc (ix3 (⟨k, hk⟩ : Fin 3) a b) := by
  rw [shapeCast_1ab_ab_apply]
  exact extractStridedSlice_apply _ Wc hs _ _ fun ax => match ax with
    | ⟨0, _⟩ => rfl
    | ⟨1, _⟩ => (Nat.zero_add _).symm
    | ⟨2, _⟩ => (Nat.zero_add _).symm

theorem vslice_apply (k : ℕ) (hk : k < 3) (bc : S3x128.Idx → α)
    (hs : S3x128.Slices ![k, 0] S1x128) (q : Fin 128) :
    shapeCast S128 (extractStridedSlice S1x128 ![k, 0] bc hs) shapeCasts_S1x128_S128 (ix1 q)
      = bc (ix2 (⟨k, hk⟩ : Fin 3) q) := by
  rw [shapeCast_1a_a_apply]
  exact extractStridedSlice_apply _ bc hs _ _ fun ax => match ax with
    | ⟨0, _⟩ => rfl
    | ⟨1, _⟩ => (Nat.zero_add _).symm

end Read

theorem CN_apply : constant (F := Ideal) S_ .f32 0x47435000#32 ix0 = Cert.Spec.cN := rfl

theorem d2col_eq (e : IVec S2x800000 32) :
    KCtx.d2col e = Cert.Spec.colOf (fun n => KCtx.dinv e n * KCtx.dinv e n) := by
  funext i
  obtain ⟨p, u, rfl⟩ : ∃ (p : Fin 50000) (u : Fin 1), i = ix2 p u := ⟨i 0, i 1, eq_ix2 i⟩
  show broadcastInDim S50000x1 ![0] bcast_S50000_S50000x1_0 (mulf (KCtx.dinv e) (KCtx.dinv e)) (ix2 p u) = _
  rw [bcast_col_apply]
  rfl

theorem bRow_eq (b : FVec Ideal S128 .f32) : KCtx.bRow b = Cert.Spec.rowOf b := by
  funext i
  obtain ⟨u, q, rfl⟩ : ∃ (u : Fin 1) (q : Fin 128), i = ix2 u q := ⟨i 0, i 1, eq_ix2 i⟩
  show shapeCast S1x128 b shapeCasts_S128_S1x128 (ix2 u q) = _
  rw [shapeCast_a_1a_apply]
  rfl

theorem batchCol_eq (batch : IVec S50000 32) : KCtx.batchCol batch = Cert.Spec.colOf batch := by
  funext i
  obtain ⟨p, u, rfl⟩ : ∃ (p : Fin 50000) (u : Fin 1), i = ix2 p u := ⟨i 0, i 1, eq_ix2 i⟩
  show shapeCast S50000x1 batch shapeCasts_S50000_S50000x1 (ix2 p u) = _
  rw [shapeCast_a_a1_apply]
  rfl

theorem meanOf_eq (P : Cert.Spec.SND.Idx → EReal) : KCtx.meanOf (Cert.Spec.colsumRow P) = Cert.Spec.muV P := by
  funext j
  obtain ⟨q, rfl⟩ : ∃ q : Fin 128, j = ix1 q := ⟨j 0, eq_ix1 j⟩
  show Ideal.div (shapeCast S128 (Cert.Spec.colsumRow P) shapeCasts_S1x128_S128 (ix1 q))
      (broadcastInDim S128 ![] bcast_S_S128 (constant (F := Ideal) S_ .f32 0x47435000#32) (ix1 q))
    = Ideal.div (∑ n : Fin 50000, P (ix2 n q)) Cert.Spec.cN
  rw [shapeCast_1a_a_apply, bcast_s128_apply, CN_apply]
  rfl

theorem varOf_eq (P : Cert.Spec.SND.Idx → EReal) :
    KCtx.varOf (Cert.Spec.colsumRow P) (Cert.Spec.colsumsqRow P) = Cert.Spec.varK P := by
  funext j
  obtain ⟨q, rfl⟩ : ∃ q : Fin 128, j = ix1 q := ⟨j 0, eq_ix1 j⟩
  show Ideal.div (shapeCast S128 (Cert.Spec.colsumsqRow P) shapeCasts_S1x128_S128 (ix1 q))
        (broadcastInDim S128 ![] bcast_S_S128 (constant (F := Ideal) S_ .f32 0x47435000#32) (ix1 q))
      - KCtx.meanOf (Cert.Spec.colsumRow P) (ix1 q) * KCtx.meanOf (Cert.Spec.colsumRow P) (ix1 q)
    = Ideal.div (∑ n : Fin 50000, P (ix2 n q) * P (ix2 n q)) Cert.Spec.cN
      - Cert.Spec.muV P (ix1 q) * Cert.Spec.muV P (ix1 q)
  rw [meanOf_eq, shapeCast_1a_a_apply, bcast_s128_apply, CN_apply]
  rfl

theorem bRow_meanOf (P : Cert.Spec.SND.Idx → EReal) :
    KCtx.bRow (KCtx.meanOf (Cert.Spec.colsumRow P)) = Cert.Spec.rowOf (Cert.Spec.muV P) := by
  rw [meanOf_eq, bRow_eq]

theorem bRow_varOf (P : Cert.Spec.SND.Idx → EReal) :
    KCtx.bRow (KCtx.varOf (Cert.Spec.colsumRow P) (Cert.Spec.colsumsqRow P)) = Cert.Spec.rowOf (Cert.Spec.varK P) := by
  rw [varOf_eq, bRow_eq]

theorem wSlice_eq (k : Fin 3) (Wc : FVec Ideal S3x128x128 .f32) : KCtx.wSlice k Wc = Cert.Spec.sl3 Wc k := by
  funext i
  obtain ⟨a, b, rfl⟩ : ∃ (a : Fin 128) (b : Fin 128), i = ix2 a b := ⟨i 0, i 1, eq_ix2 i⟩
  exact wslice_apply k.val k.isLt Wc (KCtx.slices3 k) a b

theorem vSlice_eq (k : Fin 3) (bc : FVec Ideal S3x128 .f32) : KCtx.vSlice k bc = Cert.Spec.sl2 bc k := by
  funext j
  obtain ⟨q, rfl⟩ : ∃ q : Fin 128, j = ix1 q := ⟨j 0, eq_ix1 j⟩
  exact vslice_apply k.val k.isLt bc (KCtx.slices2 k) q

end Cert.KernelIdeal.KPat

end
-- ==== Proof.KHost.lean ====
import proofs.«401582_j39573828665766_2_alg».proof.Proof.Gen.KernelIdeal.Launch
import proofs.«401582_j39573828665766_2_alg».proof.Proof.KCtx
import proofs.«401582_j39573828665766_2_alg».proof.Proof.KHostB
import proofs.«401582_j39573828665766_2_alg».proof.Proof.KPat
import proofs.«401582_j39573828665766_2_alg».proof.Proof.Spec
import Idealize.ShloMosaic.Lib.StableHlo.Run
import Idealize.ShloMosaic.Lib.Pipeline.Value
import Idealize.ShloMosaic.Lib.ValueIdx

noncomputable section

namespace Cert.KernelIdeal.KHost

open Idealize.ShloMosaic Idealize.SL.Sem Idealize.ShloMosaic.ValueIdx
open Cert.KernelIdeal Cert.KernelIdeal.Gen

section Abstract
variable {F : FTy → Type} [FloatOps F]

def degOfG (d : IVec S800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

def dinvOfG (d : IVec S800000 32) : FVec F S50000 .f32 :=
  Host.rsqrt (addf (degOfG d) (broadcastInDim S50000 ![] bcast_S_S50000 (constant S_ .f32 0x3F800000#32)))

def normOfG (s d : IVec S800000 32) (dv : FVec F S50000 .f32) : FVec F S800000 .f32 :=
  mulf (Host.gather gather_S50000_S800000x1_S800000_n_0_n_n_0_1_1 dv (KCtx.wrapCol s))
       (Host.gather gather_S50000_S800000x1_S800000_n_0_n_n_0_1_1 dv (KCtx.wrapCol d))

theorem g0_v12 (W : Valuation τ sig (Elt F)) :
    StableHlo.after hostOps0 W (Proc.devRef .tc main_call0_v12)
      = broadcastInDim S50000x1 ![0] bcast_S50000_S50000x1_0
          (mulf (dinvOfG (KCtx.dst (W (Proc.devRef .tc main_arg1)))) (dinvOfG (KCtx.dst (W (Proc.devRef .tc main_arg1))))) := by
  after_results_simp
  rfl

theorem g0_v27 (W : Valuation τ sig (Elt F)) :
    StableHlo.after hostOps0 W (Proc.devRef .tc main_call0_v27)
      = normOfG (KCtx.src (W (Proc.devRef .tc main_arg1))) (KCtx.dst (W (Proc.devRef .tc main_arg1))) (dinvOfG (KCtx.dst (W (Proc.devRef .tc main_arg1)))) := by
  after_results_simp
  rfl

end Abstract

variable (W : Valuation τ sig (Elt Ideal))

theorem degOfG_ideal (d : IVec S800000 32) : degOfG (F := Ideal) d = KCtx.degOf d := rfl

theorem dinvOfG_ideal (d : IVec S800000 32) : dinvOfG (F := Ideal) d = KCtx.dinvOf d := by
  unfold dinvOfG KCtx.dinvOf
  rw [degOfG_ideal]

theorem normOfG_ideal (s d : IVec S800000 32) (dv : FVec Ideal S50000 .f32) :
    normOfG (F := Ideal) s d dv = KCtx.normOf s d dv := rfl

theorem h0_v1 :
    StableHlo.after hostOps0 W (Proc.devRef .tc main_call0_v1) = KCtx.src (W (Proc.devRef .tc main_arg1)) := by
  after_results_simp
  rfl

theorem h0_v3 :
    StableHlo.after hostOps0 W (Proc.devRef .tc main_call0_v3) = KCtx.dst (W (Proc.devRef .tc main_arg1)) := by
  after_results_simp
  rfl

theorem h0_v12 :
    StableHlo.after hostOps0 W (Proc.devRef .tc main_call0_v12) = KCtx.d2col (W (Proc.devRef .tc main_arg1)) := by
  rw [g0_v12 W, dinvOfG_ideal]
  rfl

theorem h0_v27 :
    StableHlo.after hostOps0 W (Proc.devRef .tc main_call0_v27) = KCtx.norm (W (Proc.devRef .tc main_arg1)) := by
  rw [g0_v27 W, dinvOfG_ideal, normOfG_ideal]
  rfl

theorem h1_v41 :
    StableHlo.after hostOps1 W (Proc.devRef .tc main_call0_v41) = KCtx.aggOf (W (Proc.devRef .tc main_call0_v1)) (W (Proc.devRef .tc main_call0_v3)) (W (Proc.devRef .tc main_call0_v27)) (W (Proc.devRef .tc main_call0_v28)) := by
  after_results_simp
  rfl

theorem h1_v42 :
    StableHlo.after hostOps1 W (Proc.devRef .tc main_call0_v42) = KCtx.bRow (W (Proc.devRef .tc main_arg4)) := by
  after_results_simp
  rfl

theorem h2_v53 :
    StableHlo.after hostOps2 W (Proc.devRef .tc main_call0_v53) = KCtx.wSlice 0 (W (Proc.devRef .tc main_arg7)) := by
  after_results_simp
  rfl

theorem h2_v55 :
    StableHlo.after hostOps2 W (Proc.devRef .tc main_call0_v55) = KCtx.vSlice 0 (W (Proc.devRef .tc main_arg8)) := by
  after_results_simp
  rfl

theorem h2_v56 :
    StableHlo.after hostOps2 W (Proc.devRef .tc main_call0_v56) = KCtx.bRow (W (Proc.devRef .tc main_arg5)) := by
  after_results_simp
  rfl

theorem h2_v57 :
    StableHlo.after hostOps2 W (Proc.devRef .tc main_call0_v57) = KCtx.bRow (W (Proc.devRef .tc main_arg6)) := by
  after_results_simp
  rfl

theorem h2_v58 :
    StableHlo.after hostOps2 W (Proc.devRef .tc main_call0_v58) = KCtx.bRow (KCtx.meanOf (W (Proc.devRef .tc main_call0_v43_1))) := by
  after_results_simp
  rfl

theorem h2_v59 :
    StableHlo.after hostOps2 W (Proc.devRef .tc main_call0_v59) = KCtx.bRow (KCtx.varOf (W (Proc.devRef .tc main_call0_v43_1)) (W (Proc.devRef .tc main_call0_v43_2))) := by
  after_results_simp
  rfl

theorem h3_v73 :
    StableHlo.after hostOps3 W (Proc.devRef .tc main_call0_v73) = KCtx.aggOf (W (Proc.devRef .tc main_call0_v1)) (W (Proc.devRef .tc main_call0_v3)) (W (Proc.devRef .tc main_call0_v27)) (W (Proc.devRef .tc main_call0_v60)) := by
  after_results_simp
  rfl

theorem h3_v74 :
    StableHlo.after hostOps3 W (Proc.devRef .tc main_call0_v74) = KCtx.bRow (W (Proc.devRef .tc main_call0_v55)) := by
  after_results_simp
  rfl

theorem h4_v89 :
    StableHlo.after hostOps4 W (Proc.devRef .tc main_call0_v89) = KCtx.wSlice 1 (W (Proc.devRef .tc main_arg7)) := by
  after_results_simp
  rfl

theorem h4_v91 :
    StableHlo.after hostOps4 W (Proc.devRef .tc main_call0_v91) = KCtx.vSlice 1 (W (Proc.devRef .tc main_arg8)) := by
  after_results_simp
  rfl

theorem h4_v92 :
    StableHlo.after hostOps4 W (Proc.devRef .tc main_call0_v92) = KCtx.bRow (KCtx.vSlice 0 (W (Proc.devRef .tc main_arg9))) := by
  after_results_simp
  rfl

theorem h4_v93 :
    StableHlo.after hostOps4 W (Proc.devRef .tc main_call0_v93) = KCtx.bRow (KCtx.vSlice 0 (W (Proc.devRef .tc main_arg10))) := by
  after_results_simp
  rfl

theorem h4_v94 :
    StableHlo.after hostOps4 W (Proc.devRef .tc main_call0_v94) = KCtx.bRow (KCtx.meanOf (W (Proc.devRef .tc main_call0_v75_1))) := by
  after_results_simp
  rfl

theorem h4_v95 :
    StableHlo.after hostOps4 W (Proc.devRef .tc main_call0_v95) = KCtx.bRow (KCtx.varOf (W (Proc.devRef .tc main_call0_v75_1)) (W (Proc.devRef .tc main_call0_v75_2))) := by
  after_results_simp
  rfl

end Cert.KernelIdeal.KHost

end
-- ==== Proof.RegBn.lean ====
import proofs.«401582_j39573828665766_2_alg».proof.Proof.Gen.KernelIdeal.Frame
import proofs.«401582_j39573828665766_2_alg».proof.Proof.Spec
import Idealize.ShloMosaic.Lib.StackMember
import Idealize.ShloMosaic.Lib.ValueLayout

noncomputable section

namespace Cert.KernelIdeal.RegVal.Bn

open Idealize.ShloMosaic Idealize.ShloMosaic.ValueIdx Idealize.ShloMosaic.StackMember
open Cert.KernelIdeal Cert.KernelIdeal.Gen Cert.Spec

variable (A : Vec Ideal S50000x128 .f32) (W : Vec Ideal S128x128 .f32) (g be mu var : Vec Ideal S1x128 .f32)

/-- Rows `o, …, o + 4999` of an array of 50000 rows. -/
def rows (o : ℕ) (h : o + 5000 ≤ 50000) : Vec Ideal S5000x128 .f32 :=
  fun j => A (ix2 ⟨o + j 0, by have := idx2_lt0 j; omega⟩ (j 1))

/-- The dimension numbers are the plain product's, so the sum over the contracted axis is the matrix product's. -/
theorem blk_mm (L : FVec Ideal S5000x128 .bf16) (R : FVec Ideal S128x128 .bf16) (p : Fin 5000) (q : Fin 128) :
    matmul dot_S5000x128_S128x128_S5000x128_1_0_0_1_n_n none L R (constant S5000x128 .f32 0x00000000#32) (ix2 p q)
      = ∑ k : Fin 128, L (ix2 p k) * R (ix2 k q) :=
  (Ideal.matmul_constant_zero_apply _ none L R _).trans
    ((Ideal.dotGeneral_apply (DotDims.plain 5000 128 128) none .single L R _).symm.trans (dotGeneral_plain_apply none L R p q))

theorem ex_ix2 (j : S5000x128.Idx) : ∃ (p : Fin 5000) (q : Fin 128), j = ix2 p q := ⟨j 0, j 1, eq_ix2 j⟩

variable (o : ℕ) (h : o + 5000 ≤ 50000)

/-- The product acts row by row, so it commutes with taking a block of rows. -/
theorem pay0_rows : k0_pay1 (rows A o h) W = rows (mm A W) o h := by
  funext j
  obtain ⟨p, q, rfl⟩ := ex_ix2 j
  exact blk_mm _ _ p q

/-- Normalisation, rectifier and product all act row by row, so they commute with taking a block of rows. -/
theorem pay_rows : k2_pay1 (rows A o h) g be mu var W = rows (mm (actRow A g be mu var) W) o h := by
  funext j
  obtain ⟨p, q, rfl⟩ := ex_ix2 j
  refine (blk_mm _ _ p q).trans ?_
  unfold rows mm
  refine Finset.sum_congr rfl fun k _ => ?_
  simp only [truncf_apply, maximumf_apply, addf_apply, mulf_apply, subf_apply, broadcast_apply, shapeCast_self]
  show max (_ * (_ * Ideal.rsqrt (broadcastTo S5000x128 var Gen.broadcasts_S1x128_S5000x128 (ix2 p k) + eps)) + _) (Ideal.ofBits .f32 0x00000000#32) * _ = _
  simp only [broadcastTo_1b_ab_apply, Ideal.ofBits_zero_f32]
  rfl

/-- Every offset is zero and the sizes are the array's, so the block is the array. -/
theorem ld_whole {S : Shape} (X : Vec Ideal S .f32) {ix : Fin S.rank → ℕ} (hi : ix = 0) (inb) :
    View.ld X (Rect.unit (fun a => ix a * S.size a) S.size inb) = X :=
  View.ld_unit_zero (by subst hi; exact funext fun a => Nat.zero_mul _) inb X

/-- The column offset is zero and the row offset is `5000 t`. -/
theorem ld_rows {ix : Fin 2 → ℕ} {t : ℕ} (hi : ix = ![t, 0]) (inb) (h : t * 5000 + 5000 ≤ 50000) :
    View.ld A (Rect.unit (s := S50000x128) (fun a => ix a * S5000x128.size a) S5000x128.size inb) = rows A (t * 5000) h := by
  subst hi
  funext j
  refine congrArg A (funext fun a => Fin.ext ?_)
  match a with
  | ⟨0, _⟩ => show t * 5000 + 1 * (j 0).val = t * 5000 + (j 0).val; omega
  | ⟨1, _⟩ => show 0 * 128 + 1 * (j 1).val = (j 1).val; omega

/-- Row `r` lies in block `r / 5000`. -/
theorem cover_rows {N : ℕ} (hN : N = 10) {ix : Fin N → Fin 2 → ℕ} (hix : ∀ t, ix t = ![t.val, 0])
    (inb : ∀ t a, ix t a * S5000x128.size a + S5000x128.size a ≤ S50000x128.size a) (i : S50000x128.Idx) :
    ∃ t, i ∈ (Rect.unit (s := S50000x128) (fun a => ix t a * S5000x128.size a) S5000x128.size (inb t)).set := by
  subst hN
  have h0 := idx2_lt0 i
  have h1 := idx2_lt1 i
  refine ⟨⟨(i 0).val / 5000, by omega⟩, Rect.mem_set_unit.mpr fun a => ?_⟩
  rw [hix]
  match a with
  | ⟨0, _⟩ => show (i 0).val / 5000 * 5000 ≤ (i 0).val ∧ (i 0).val < (i 0).val / 5000 * 5000 + 5000; omega
  | ⟨1, _⟩ => show 0 * 128 ≤ (i 1).val ∧ (i 1).val < 0 * 128 + 128; omega

theorem zero_off : (![0, 0] : Fin 2 → ℕ) = fun _ => 0 := funext (Fin.forall_fin_two.2 ⟨rfl, rfl⟩)

theorem mem_whole_slice {b : Ref sig .tc} {r : Rect b.ty.shape} {i : b.ty.shape.Idx} (h : i ∈ r.set) :
    i ∈ ((View.whole b).slice r).set :=
  (View.set_slice_whole b r).symm ▸ h

variable {t : ℕ} {i0 i1 i2 i3 i4 i5 i6 : Fin 2 → ℕ}

/-- The input blocks are rows `5000 t, …` of the operand and the whole weight, so the result is those rows of the product. -/
theorem mm_blk (ht : t < 10) (hi : (i0 = ![t, 0] ∧ i2 = ![t, 0]) ∧ i1 = 0) {b0 b1 b2 : _} :
    out0_2 (View.ld A (Rect.unit (s := S50000x128) (fun a => i0 a * S5000x128.size a) S5000x128.size b0))
        (View.ld W (Rect.unit (s := S128x128) (fun a => i1 a * S128x128.size a) S128x128.size b1))
      = View.ld (Val := Elt Ideal) (e' := .f32) (mm A W)
          (Rect.unit (s := S50000x128) (fun a => i2 a * S5000x128.size a) S5000x128.size b2) := by
  rw [ld_rows A hi.1.1 b0 (by omega), ld_rows (mm A W) hi.1.2 b2 (by omega), ld_whole W hi.2, ← pay0_rows]
  unfold out0_2
  rw [View.canon_unit_zero zero_off]
  simp only [View.ld_unit_zero (S := S5000x128) zero_off, View.ld_unit_zero (S := S128x128) zero_off]

/-- The same with the four parameter rows read whole and the operand normalised and rectified first. -/
theorem bn_blk (ht : t < 10) (hi : (i0 = ![t, 0] ∧ i6 = ![t, 0]) ∧ i1 = 0 ∧ i2 = 0 ∧ i3 = 0 ∧ i4 = 0 ∧ i5 = 0)
    {b0 b1 b2 b3 b4 b5 b6 : _} :
    out2_6 (View.ld A (Rect.unit (s := S50000x128) (fun a => i0 a * S5000x128.size a) S5000x128.size b0))
        (View.ld W (Rect.unit (s := S128x128) (fun a => i1 a * S128x128.size a) S128x128.size b1))
        (View.ld g (Rect.unit (s := S1x128) (fun a => i2 a * S1x128.size a) S1x128.size b2))
        (View.ld be (Rect.unit (s := S1x128) (fun a => i3 a * S1x128.size a) S1x128.size b3))
        (View.ld mu (Rect.unit (s := S1x128) (fun a => i4 a * S1x128.size a) S1x128.size b4))
        (View.ld var (Rect.unit (s := S1x128) (fun a => i5 a * S1x128.size a) S1x128.size b5))
      = View.ld (Val := Elt Ideal) (e' := .f32) (mm (actRow A g be mu var) W)
          (Rect.unit (s := S50000x128) (fun a => i6 a * S5000x128.size a) S5000x128.size b6) := by
  obtain ⟨⟨h0, h6⟩, h1, h2, h3, h4, h5⟩ := hi
  rw [ld_rows A h0 b0 (by omega), ld_rows (mm (actRow A g be mu var) W) h6 b6 (by omega), ld_whole W h1, ld_whole g h2,
    ld_whole be h3, ld_whole mu h4, ld_whole var h5, ← pay_rows]
  unfold out2_6
  rw [View.canon_unit_zero zero_off]
  simp only [View.ld_unit_zero (S := S5000x128) zero_off, View.ld_unit_zero (S := S1x128) zero_off,
    View.ld_unit_zero (S := S128x128) zero_off]

end Cert.KernelIdeal.RegVal.Bn

end
-- ==== Proof.Reg0.lean ====
import proofs.«401582_j39573828665766_2_alg».proof.Proof.RegBn

noncomputable section

namespace Cert.KernelIdeal.RegVal

open Idealize.ShloMosaic Idealize.ShloMosaic.TcCoe Idealize.SL.Sem Cert.KernelIdeal Cert.KernelIdeal.Gen Bn

variable (V : (c : Dev nD) → (b : Ref sig .tc) → Buf (Elt Ideal) ((c : Thread nD τ).loc b))

theorem Bn.idx0 : ∀ t : Fin cfg0.N, (win0_0.index t = ![t.val, 0] ∧ win0_2.index t = ![t.val, 0]) ∧ win0_1.index t = 0 :=
  (by decide +kernel : ∀ t : Fin grid0.N, _)

/-- Each point writes its rows of the product, and the ten blocks of rows cover the array. -/
theorem final0 (c : Dev nD) :
    (Gen.dat0 (F := Ideal) V c).arrAt 2 cfg0.N
      = Cert.Spec.mm (V c (Pipeline.arrRef spec0 0)) (V c (Pipeline.arrRef spec0 1)) :=
  (dat0 (F := Ideal) V c).arrAt_eq_of_cover 2 _
    (fun t _ => (after0_2 V c t).trans (mm_blk _ _ (t.isLt.trans_eq N_0) (idx0 t)))
    fun i => (cover_rows N_0 (fun t => (idx0 t).1.2) _ i).imp fun t h => ⟨flush0_2 t, mem_whole_slice h⟩

end Cert.KernelIdeal.RegVal

end
-- ==== Proof.LibTiles.lean ====
import Mathlib.Algebra.BigOperators.Fin
import Mathlib.Data.Fintype.BigOperators
import Mathlib.Logic.Equiv.Fin.Basic
import Idealize.ShloMosaic.Lib.ValueIdx

namespace Cert.LibTiles

variable {M : Type*} [AddCommMonoid M]

-- j · b + k < (j + 1) · b ≤ a · b.
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

-- (j, k) ↦ j · b + k is a bijection from pairs onto the indices below a · b.
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

end Cert.LibTiles
-- ==== Proof.RegStat.lean ====
import proofs.«401582_j39573828665766_2_alg».proof.Proof.Gen.KernelIdeal.Skeleton
import proofs.«401582_j39573828665766_2_alg».proof.Proof.Gen.KernelIdeal.Launch
import proofs.«401582_j39573828665766_2_alg».proof.Proof.Spec
import proofs.«401582_j39573828665766_2_alg».proof.Proof.LibTiles
import Idealize.ShloMosaic.Lib.Pipeline.Value
import Idealize.ShloMosaic.Lib.ValueLayout
import Idealize.ShloMosaic.PureOps.Ideal.Laws

noncomputable section

namespace Cert.KernelIdeal.RegVal.Stat

open Idealize.ShloMosaic Idealize.ShloMosaic.TcCoe Idealize.ShloMosaic.ValueIdx
open Cert.KernelIdeal Cert.KernelIdeal.Gen Cert.Spec

theorem hz : (![0, 0] : Fin 2 → Nat) = fun _ => 0 := funext fun a => by fin_cases a <;> rfl

-- A column [a, 1] broadcast over b lanes reads, at (p, q), the column's entry p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

section Payloads
variable (v3 : Vec Ideal S5000x1 .f32) (v7 : Vec Ideal S1x128 .f32) (v11 v13 : Vec Ideal S5000x128 .f32)
  (w : Vec Ideal S1x128 .f32) (r : Fin 5000) (q : Fin 128)

-- One tile's activation at row r, lane q: agg + h · d + b.
theorem pay3_apply :
    k1_pay3 v3 v7 v11 v13 (ix2 r q) = v11 (ix2 r q) + v13 (ix2 r q) * v3 (ix2 r 0) + v7 (ix2 0 q) := by
  unfold k1_pay3
  simp only [shapeCast_self]
  show v11 (ix2 r q) + v13 (ix2 r q) * broadcastTo S5000x128 v3 broadcasts_S5000x1_S5000x128 (ix2 r q)
    + broadcastTo S5000x128 v7 broadcasts_S1x128_S5000x128 (ix2 r q) = _
  rw [broadcastTo_a1_ab_apply, broadcastTo_1b_ab_apply]

-- The column sums of a [5000, 128] block, as a row [1, 128], at lane q.
theorem colsum_tile_apply (X : Vec Ideal S5000x128 .f32) (hφ : FKind.Formats FTy.f32) (hacc : (0x00000000#32 : BitVec 32) = 0x00000000#32) :
    shapeCast S1x128 (multiReduction (F := Ideal) .add [0] S128 X 0x00000000#32 reduces_S5000x128_S128 hφ hacc) shapeCasts_S128_S1x128 (ix2 0 q)
      = ∑ r : Fin 5000, X (ix2 r q) := by
  refine (shapeCast_a_1a_apply _ shapeCasts_S128_S1x128 0 q).trans ?_
  refine (Ideal.multiReduction_add_single X 0x00000000#32 reduces_S5000x128_S128 hφ hacc (ix1 q)).trans ?_
  refine Finset.sum_congr rfl fun k _ => congrArg X (funext fun a => Fin.ext ?_)
  match a with
  | ⟨0, _⟩ => rfl
  | ⟨1, _⟩ => rfl

-- The carried column sum after a tile: what was carried plus the tile's column sums.
theorem pay4_apply :
    k1_pay4 v3 v7 v11 v13 w (ix2 0 q) = w (ix2 0 q) + ∑ r : Fin 5000, k1_pay3 v3 v7 v11 v13 (ix2 r q) := by
  unfold k1_pay4
  simp only [shapeCast_self]
  exact congrArg (w (ix2 0 q) + ·) (colsum_tile_apply q (k1_pay3 v3 v7 v11 v13) _ _)

theorem pay5_apply :
    k1_pay5 v3 v7 v11 v13 w (ix2 0 q)
      = w (ix2 0 q) + ∑ r : Fin 5000, k1_pay3 v3 v7 v11 v13 (ix2 r q) * k1_pay3 v3 v7 v11 v13 (ix2 r q) := by
  unfold k1_pay5
  simp only [shapeCast_self]
  exact congrArg (w (ix2 0 q) + ·) (colsum_tile_apply q (mulf (k1_pay3 v3 v7 v11 v13) (k1_pay3 v3 v7 v11 v13)) _ _)

theorem pay1_apply (j : S1x128.Idx) : k1_pay1 (F := Ideal) j = 0 := Ideal.ofBits_zero_f32
theorem pay2_apply (j : S1x128.Idx) : k1_pay2 (F := Ideal) j = 0 := Ideal.ofBits_zero_f32

end Payloads

-- Row r of tile t among the 50000 rows.
def row {N : ℕ} (hN : N = 10) (t : Fin N) (r : Fin 5000) : Fin 50000 :=
  ⟨t.val * 5000 + r.val, by have := t.isLt; have := r.isLt; omega⟩

-- The sum of f over the rows of tile t (zero past the last tile).
def tileSum (f : Fin 50000 → EReal) (t : ℕ) : EReal :=
  if h : t < 10 then ∑ r : Fin 5000, f (row rfl ⟨t, h⟩ r) else 0

theorem sum_tiles (f : Fin 50000 → EReal) : ∑ t ∈ Finset.range 10, tileSum f t = ∑ n : Fin 50000, f n := by
  refine Eq.trans ?_ (Cert.LibTiles.tile_sum 10 5000 f).symm
  rw [Finset.sum_range]
  exact Finset.sum_congr rfl fun t _ => dif_pos t.isLt

-- A quantity that starts at M 0 and adds M (n + 1) at step n + 1 holds the partial sums of M.
theorem acc_sum {N : ℕ} (f : (n : ℕ) → n < N → EReal) (M : ℕ → EReal) (h0 : ∀ h, f 0 h = M 0)
    (hs : ∀ n (h : n + 1 < N), f (n + 1) h = f n (Nat.lt_of_succ_lt h) + M (n + 1)) :
    ∀ n h, f n h = ∑ t ∈ Finset.range (n + 1), M t
  | 0, h => by rw [h0, Finset.sum_range_one]
  | n + 1, h => by rw [hs, acc_sum f M h0 hs n, Finset.sum_range_succ _ (n + 1)]

-- Every tile holds its rows of agg + h · d + b; after the last, the carried rows hold the column sums over all 50000 rows.
theorem stat_outs {N : ℕ} (hN : N = 10)
    (outs : (n : ℕ) → n < N → Vec Ideal S5000x128 .f32 × Vec Ideal S1x128 .f32 × Vec Ideal S1x128 .f32)
    (d : Fin N → Vec Ideal S5000x1 .f32) (b : Fin N → Vec Ideal S1x128 .f32) (agg h : Fin N → Vec Ideal S5000x128 .f32)
    (A H : Vec Ideal S50000x128 .f32) (D : Vec Ideal S50000x1 .f32) (B : Vec Ideal S1x128 .f32)
    (hA : ∀ t y, agg t y = A (ix2 (row hN t (y 0)) (y 1))) (hH : ∀ t y, h t y = H (ix2 (row hN t (y 0)) (y 1)))
    (hD : ∀ t y, d t y = D (ix2 (row hN t (y 0)) (y 1))) (hB : ∀ t y, b t y = B y)
    (h0 : ∀ t : Fin N, t.val % 10 = 0 → outs t.val t.isLt = (k1_pay3 (d t) (b t) (agg t) (h t),
      k1_pay4 (d t) (b t) (agg t) (h t) (k1_pay1 (F := Ideal)), k1_pay5 (d t) (b t) (agg t) (h t) (k1_pay2 (F := Ideal))))
    (hs : ∀ t : Fin N, ¬t.val % 10 = 0 → outs t.val t.isLt = (k1_pay3 (d t) (b t) (agg t) (h t),
      k1_pay4 (d t) (b t) (agg t) (h t) (outs (t.val - 1) (Nat.lt_of_le_of_lt (Nat.sub_le _ _) t.isLt)).2.1,
      k1_pay5 (d t) (b t) (agg t) (h t) (outs (t.val - 1) (Nat.lt_of_le_of_lt (Nat.sub_le _ _) t.isLt)).2.2)) :
    (∀ (t : Fin N) y, (outs t.val t.isLt).1 y = preRow A H D B (ix2 (row hN t (y 0)) (y 1)))
    ∧ ∀ t : Fin N, t.val % 10 = 9 → ∀ j : S1x128.Idx,
      (outs t.val t.isLt).2.1 j = colsumRow (preRow A H D B) j ∧ (outs t.val t.isLt).2.2 j = colsumsqRow (preRow A H D B) j := by
  subst hN
  have tile : ∀ (t : Fin 10) r q, k1_pay3 (d t) (b t) (agg t) (h t) (ix2 r q) = preRow A H D B (ix2 (row rfl t r) q) :=
    fun t r q => by rw [pay3_apply, hA, hH, hD, hB]; rfl
  have later : ∀ n (hn : n + 1 < 10), ¬(⟨n + 1, hn⟩ : Fin 10).val % 10 = 0 := fun n hn => by dsimp only; omega
  have c5 : ∀ n hn (q : Fin 128), (outs n hn).2.1 (ix2 0 q)
      = ∑ j ∈ Finset.range (n + 1), tileSum (fun m => preRow A H D B (ix2 m q)) j := fun n hn q =>
    acc_sum (fun n hn => (outs n hn).2.1 (ix2 0 q)) _
      (fun hn => by
        rw [h0 ⟨0, hn⟩ rfl]
        show k1_pay4 (F := Ideal) _ _ _ _ (k1_pay1 (F := Ideal)) (ix2 0 q) = _
        rw [pay4_apply, pay1_apply, zero_add, tileSum, dif_pos hn]
        exact Finset.sum_congr rfl fun r _ => tile ⟨0, hn⟩ r q)
      (fun n hn => by
        rw [hs ⟨n + 1, hn⟩ (later n hn)]
        show k1_pay4 (F := Ideal) _ _ _ _ (outs n (Nat.lt_of_succ_lt hn)).2.1 (ix2 0 q) = _
        rw [pay4_apply, tileSum, dif_pos hn]
        exact congrArg _ (Finset.sum_congr rfl fun r _ => tile ⟨n + 1, hn⟩ r q)) n hn
  have c6 : ∀ n hn (q : Fin 128), (outs n hn).2.2 (ix2 0 q)
      = ∑ j ∈ Finset.range (n + 1), tileSum (fun m => preRow A H D B (ix2 m q) * preRow A H D B (ix2 m q)) j := fun n hn q =>
    acc_sum (fun n hn => (outs n hn).2.2 (ix2 0 q)) _
      (fun hn => by
        rw [h0 ⟨0, hn⟩ rfl]
        show k1_pay5 (F := Ideal) _ _ _ _ (k1_pay2 (F := Ideal)) (ix2 0 q) = _
        rw [pay5_apply, pay2_apply, zero_add, tileSum, dif_pos hn]
        exact Finset.sum_congr rfl fun r _ => by rw [tile ⟨0, hn⟩ r q])
      (fun n hn => by
        rw [hs ⟨n + 1, hn⟩ (later n hn)]
        show k1_pay5 (F := Ideal) _ _ _ _ (outs n (Nat.lt_of_succ_lt hn)).2.2 (ix2 0 q) = _
        rw [pay5_apply, tileSum, dif_pos hn]
        exact congrArg _ (Finset.sum_congr rfl fun r _ => by rw [tile ⟨n + 1, hn⟩ r q])) n hn
  refine ⟨fun t y => ?_, fun t h9 j => ?_⟩
  · obtain ⟨r, q, rfl⟩ : ∃ (r : Fin 5000) (q : Fin 128), y = ix2 r q := ⟨y 0, y 1, eq_ix2 y⟩
    refine Eq.trans ?_ (tile t r q)
    by_cases h : t.val % 10 = 0
    · rw [h0 t h]
    · rw [hs t h]
  · obtain ⟨u, q, rfl⟩ : ∃ (u : Fin 1) (q : Fin 128), j = ix2 u q := ⟨j 0, j 1, eq_ix2 j⟩
    obtain rfl : u = 0 := Subsingleton.elim _ _
    have e : t.val + 1 = 10 := by have := t.isLt; omega
    rw [c5, c6, e, sum_tiles, sum_tiles]
    exact ⟨rfl, rfl⟩

-- Tile t of a row-tiled array is block (t, 0) of it; a single row is block (0, 0).
theorem idx_facts : ∀ t : Fin grid1.N,
    win1_0.index t (0 : Fin 2) = t.val ∧ win1_0.index t (1 : Fin 2) = 0
    ∧ win1_2.index t (0 : Fin 2) = t.val ∧ win1_2.index t (1 : Fin 2) = 0
    ∧ win1_3.index t (0 : Fin 2) = 0 ∧ win1_3.index t (1 : Fin 2) = 0 := by decide +kernel

section Blocks
variable (t : Fin grid1.N)

theorem emb_tile (y : S5000x128.Idx) : (win1_0.blk t).view.emb y = ix2 (row N_1 t (y 0)) (y 1) := by
  obtain ⟨e0, e1, -⟩ := idx_facts t
  funext a
  apply Fin.ext
  match a with
  | ⟨0, _⟩ => show win1_0.index t (0 : Fin 2) * 5000 + 1 * (y 0).val = t.val * 5000 + (y 0).val; omega
  | ⟨1, _⟩ => show win1_0.index t (1 : Fin 2) * 128 + 1 * (y 1).val = (y 1).val; omega

theorem emb_col (y : S5000x1.Idx) : (win1_2.blk t).view.emb y = ix2 (row N_1 t (y 0)) (y 1) := by
  obtain ⟨-, -, e0, e1, -⟩ := idx_facts t
  funext a
  apply Fin.ext
  match a with
  | ⟨0, _⟩ => show win1_2.index t (0 : Fin 2) * 5000 + 1 * (y 0).val = t.val * 5000 + (y 0).val; omega
  | ⟨1, _⟩ => show win1_2.index t (1 : Fin 2) * 1 + 1 * (y 1).val = (y 1).val; omega

theorem emb_row (y : S1x128.Idx) : (win1_3.blk t).view.emb y = y := by
  obtain ⟨-, -, -, -, e0, e1⟩ := idx_facts t
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem cover_row (i : S1x128.Idx) : i ∈ (win1_3.blk t).view.set := emb_row t i ▸ View.emb_mem_set _ i

end Blocks

theorem cover_last (i : S1x128.Idx) : ∃ t : Fin grid1.N, t.val % 10 = 9 ∧ i ∈ (win1_3.blk t).view.set :=
  ⟨t1_9, rfl, cover_row t1_9 i⟩

-- Row n lies in tile n / 5000, at row n % 5000 of it.
theorem cover_tile (i : S50000x128.Idx) : ∃ t : Fin grid1.N, i ∈ (win1_0.blk t).view.set := by
  have h0 : (i 0).val < 50000 := (i 0).isLt
  obtain ⟨t, ht⟩ : ∃ t : Fin grid1.N, t.val = (i 0).val / 5000 := ⟨⟨(i 0).val / 5000, by rw [N_1]; omega⟩, rfl⟩
  have e : (win1_0.blk t).view.emb (ix2 ⟨(i 0).val % 5000, Nat.mod_lt _ (by decide)⟩ (i 1)) = i := by
    rw [emb_tile]
    funext a
    apply Fin.ext
    match a with
    | ⟨0, _⟩ => show t.val * 5000 + (i 0).val % 5000 = (i 0).val; omega
    | ⟨1, _⟩ => rfl
  exact ⟨t, by rw [← e]; exact View.emb_mem_set _ _⟩

end Cert.KernelIdeal.RegVal.Stat

end
-- ==== Proof.Reg1.lean ====
import proofs.«401582_j39573828665766_2_alg».proof.Proof.Gen.KernelIdeal.Frame
import proofs.«401582_j39573828665766_2_alg».proof.Proof.RegStat

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RegVal.Stat

variable (V : (c : Dev nD) → (b : Ref sig .tc) → Buf (Elt Ideal) ((c : Thread nD τ).loc b)) (c : Dev nD)

namespace R1

abbrev PR1 : Cert.Spec.SND.Idx → EReal :=
  Cert.Spec.preRow (V c (Pipeline.arrRef spec1 0)) (V c (Pipeline.arrRef spec1 1)) (V c (Pipeline.arrRef spec1 2)) (V c (Pipeline.arrRef spec1 3))

variable (t : Fin cfg1.N)

-- After the first tile: its block of the activation, and the block's column sums added to zero rows.
theorem outsAt_first (h0 : t.val % 10 = 0) :
    outsAt1 V c t.val t.isLt = (k1_pay3 (iblk1 V c 2 t) (iblk1 V c 3 t) (iblk1 V c 0 t) (iblk1 V c 1 t),
      k1_pay4 (iblk1 V c 2 t) (iblk1 V c 3 t) (iblk1 V c 0 t) (iblk1 V c 1 t) (k1_pay1 (F := Ideal)),
      k1_pay5 (iblk1 V c 2 t) (iblk1 V c 3 t) (iblk1 V c 0 t) (iblk1 V c 1 t) (k1_pay2 (F := Ideal))) := by
  rw [outsAt1_A V c t h0]
  unfold out1_A_4 out1_A_5 out1_A_6
  rw [View.read_writes_eq_canon _ _ _ fun y => cover1_A_4 (y := y) .., View.read_writes_eq_canon _ _ _ fun y => cover1_A_5 (y := y) ..,
    View.read_writes_eq_canon _ _ _ fun y => cover1_A_6 (y := y) ..]
  unfold kernelRun1_A
  dsimp only
  sl_unfold_words
  simp only [View.canon_cons_unit_zero (S := S5000x128) hz, View.canon_cons_unit_zero (S := S1x128) hz, View.readAt_eq_ld,
    (hs1_0 t).read_unread, (hs1_1 t).read_unread, (hs1_2 t).read_unread, (hs1_3 t).read_unread,
    View.ld_unit_zero (S := S5000x128) hz, View.ld_unit_zero (S := S5000x1) hz, View.ld_unit_zero (S := S1x128) hz,
    View.readCov_unit_zero (S := S1x128) _ hz]

-- After a later tile: its block of the activation, and the block's column sums added to the sums so far.
theorem outsAt_later (h0 : ¬t.val % 10 = 0) :
    outsAt1 V c t.val t.isLt = (k1_pay3 (iblk1 V c 2 t) (iblk1 V c 3 t) (iblk1 V c 0 t) (iblk1 V c 1 t),
      k1_pay4 (iblk1 V c 2 t) (iblk1 V c 3 t) (iblk1 V c 0 t) (iblk1 V c 1 t) (outsAt1 V c (t.val - 1) (Nat.lt_of_le_of_lt (Nat.sub_le _ _) t.isLt)).2.1,
      k1_pay5 (iblk1 V c 2 t) (iblk1 V c 3 t) (iblk1 V c 0 t) (iblk1 V c 1 t) (outsAt1 V c (t.val - 1) (Nat.lt_of_le_of_lt (Nat.sub_le _ _) t.isLt)).2.2) := by
  rw [outsAt1_B V c t h0]
  unfold out1_B_4 out1_B_5 out1_B_6
  rw [View.read_writes_eq_canon _ _ _ fun y => cover1_B_4 (y := y) .., View.read_writes_eq_canon _ _ _ fun y => cover1_B_5 (y := y) ..,
    View.read_writes_eq_canon _ _ _ fun y => cover1_B_6 (y := y) ..]
  unfold kernelRun1_B
  dsimp only
  sl_unfold_words
  simp only [View.canon_cons_unit_zero (S := S5000x128) hz, View.canon_cons_unit_zero (S := S1x128) hz, View.readAt_eq_ld,
    (hs1_0 t).read_unread, (hs1_1 t).read_unread, (hs1_2 t).read_unread, (hs1_3 t).read_unread, (hs1_5 t).read_unread, (hs1_6 t).read_unread,
    View.ld_unit_zero (S := S5000x128) hz, View.ld_unit_zero (S := S5000x1) hz, View.ld_unit_zero (S := S1x128) hz]

theorem rd0 (y : S5000x128.Idx) : iblk1 V c 0 t y = V c (Pipeline.arrRef spec1 0) (ix2 (row N_1 t (y 0)) (y 1)) :=
  congrArg _ (emb_tile t y)
theorem rd1 (y : S5000x128.Idx) : iblk1 V c 1 t y = V c (Pipeline.arrRef spec1 1) (ix2 (row N_1 t (y 0)) (y 1)) :=
  congrArg _ (emb_tile t y)
theorem rd2 (y : S5000x1.Idx) : iblk1 V c 2 t y = V c (Pipeline.arrRef spec1 2) (ix2 (row N_1 t (y 0)) (y 1)) :=
  congrArg _ (emb_col t y)
theorem rd3 (y : S1x128.Idx) : iblk1 V c 3 t y = V c (Pipeline.arrRef spec1 3) y := congrArg _ (emb_row t y)

theorem flushed5 (G : Cert.Spec.S1D.Idx → EReal) (hG : ∀ y, (outsAt1 V c t.val t.isLt).2.1 y = G y) :
    (dat1 V c).flushed 5 t = ((cfg1.win 5).blk t).view.read (Elt Ideal) G := by
  show (cfg1.win 5).cut (grid1.coords t) ((dat1 V c).after 5 t) = _
  rw [after1_5]
  funext y
  show (outsAt1 V c t.val t.isLt).2.1 y = G (((cfg1.win 5).blk t).view.emb y)
  exact (hG y).trans (congrArg G (emb_row t y).symm)

theorem flushed6 (G : Cert.Spec.S1D.Idx → EReal) (hG : ∀ y, (outsAt1 V c t.val t.isLt).2.2 y = G y) :
    (dat1 V c).flushed 6 t = ((cfg1.win 6).blk t).view.read (Elt Ideal) G := by
  show (cfg1.win 6).cut (grid1.coords t) ((dat1 V c).after 6 t) = _
  rw [after1_6]
  funext y
  show (outsAt1 V c t.val t.isLt).2.2 y = G (((cfg1.win 6).blk t).view.emb y)
  exact (hG y).trans (congrArg G (emb_row t y).symm)

-- The outputs: the activation, its column sums, and the column sums of its squares.
theorem finals : (dat1 V c).arrAt 4 cfg1.N = PR1 V c ∧ (dat1 V c).arrAt 5 cfg1.N = Cert.Spec.colsumRow (PR1 V c)
    ∧ (dat1 V c).arrAt 6 cfg1.N = Cert.Spec.colsumsqRow (PR1 V c) := by
  obtain ⟨s4, s⟩ := stat_outs N_1 (outsAt1 V c) (iblk1 V c 2) (iblk1 V c 3) (iblk1 V c 0) (iblk1 V c 1) _ _ _ _
    (rd0 V c) (rd1 V c) (rd2 V c) (rd3 V c) (outsAt_first V c) (outsAt_later V c)
  refine ⟨(dat1 V c).arrAt_eq_of_cover 4 _ (fun t _ => ?_) fun i => (cover_tile i).imp fun t h => ⟨flush1_4 t, h⟩,
    (dat1 V c).arrAt_eq_of_cover 5 _ (fun t ht => flushed5 V c t _ fun y => (s t ((flush1_5 t).mp ht) y).1)
      fun i => (cover_last i).imp fun t h => ⟨(flush1_5 t).mpr h.1, h.2⟩,
    (dat1 V c).arrAt_eq_of_cover 6 _ (fun t ht => flushed6 V c t _ fun y => (s t ((flush1_6 t).mp ht) y).2)
      fun i => (cover_last i).imp fun t h => ⟨(flush1_6 t).mpr h.1, h.2⟩⟩
  show (cfg1.win 4).cut (grid1.coords t) ((dat1 V c).after 4 t) = _
  rw [after1_4]
  exact funext fun y => (s4 t y).trans (congrArg (PR1 V c) (emb_tile t y).symm)

end R1

theorem final1_4 : (Gen.dat1 (F := Ideal) V c).arrAt 4 cfg1.N
    = Cert.Spec.preRow (V c (Pipeline.arrRef spec1 0)) (V c (Pipeline.arrRef spec1 1)) (V c (Pipeline.arrRef spec1 2)) (V c (Pipeline.arrRef spec1 3)) :=
  (R1.finals V c).1

theorem final1_5 : (Gen.dat1 (F := Ideal) V c).arrAt 5 cfg1.N
    = Cert.Spec.colsumRow (Cert.Spec.preRow (V c (Pipeline.arrRef spec1 0)) (V c (Pipeline.arrRef spec1 1)) (V c (Pipeline.arrRef spec1 2)) (V c (Pipeline.arrRef spec1 3))) :=
  (R1.finals V c).2.1

theorem final1_6 : (Gen.dat1 (F := Ideal) V c).arrAt 6 cfg1.N
    = Cert.Spec.colsumsqRow (Cert.Spec.preRow (V c (Pipeline.arrRef spec1 0)) (V c (Pipeline.arrRef spec1 1)) (V c (Pipeline.arrRef spec1 2)) (V c (Pipeline.arrRef spec1 3))) :=
  (R1.finals V c).2.2

end Cert.KernelIdeal.RegVal

end
-- ==== Proof.Reg2.lean ====
import proofs.«401582_j39573828665766_2_alg».proof.Proof.RegBn

noncomputable section

namespace Cert.KernelIdeal.RegVal

open Idealize.ShloMosaic Idealize.ShloMosaic.TcCoe Idealize.SL.Sem Cert.KernelIdeal Cert.KernelIdeal.Gen Bn

variable (V : (c : Dev nD) → (b : Ref sig .tc) → Buf (Elt Ideal) ((c : Thread nD τ).loc b))

theorem Bn.idx2 : ∀ t : Fin cfg2.N, (win2_0.index t = ![t.val, 0] ∧ win2_6.index t = ![t.val, 0]) ∧ win2_1.index t = 0 ∧
    win2_2.index t = 0 ∧ win2_3.index t = 0 ∧ win2_4.index t = 0 ∧ win2_5.index t = 0 :=
  (by decide +kernel : ∀ t : Fin grid2.N, _)

/-- Each point writes its rows of the product, and the ten blocks of rows cover the array. -/
theorem final2 (c : Dev nD) : (Gen.dat2 (F := Ideal) V c).arrAt 6 cfg2.N
    = Cert.Spec.mm (Cert.Spec.actRow (V c (Pipeline.arrRef spec2 0)) (V c (Pipeline.arrRef spec2 2))
        (V c (Pipeline.arrRef spec2 3)) (V c (Pipeline.arrRef spec2 4)) (V c (Pipeline.arrRef spec2 5)))
        (V c (Pipeline.arrRef spec2 1)) :=
  (dat2 (F := Ideal) V c).arrAt_eq_of_cover 6 _
    (fun t _ => (after2_6 V c t).trans (bn_blk _ _ _ _ _ _ (t.isLt.trans_eq N_2) (idx2 t)))
    fun i => (cover_rows N_2 (fun t => (idx2 t).1.2) _ i).imp fun t h => ⟨flush2_6 t, mem_whole_slice h⟩

end Cert.KernelIdeal.RegVal

end
-- ==== Proof.Reg3.lean ====
import proofs.«401582_j39573828665766_2_alg».proof.Proof.Gen.KernelIdeal.Frame
import proofs.«401582_j39573828665766_2_alg».proof.Proof.RegStat

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RegVal.Stat

variable (V : (c : Dev nD) → (b : Ref sig .tc) → Buf (Elt Ideal) ((c : Thread nD τ).loc b)) (c : Dev nD)

namespace R3

abbrev PR3 : Cert.Spec.SND.Idx → EReal :=
  Cert.Spec.preRow (V c (Pipeline.arrRef spec3 0)) (V c (Pipeline.arrRef spec3 1)) (V c (Pipeline.arrRef spec3 2)) (V c (Pipeline.arrRef spec3 3))

variable (t : Fin cfg3.N)

-- After the first tile: its block of the activation, and the block's column sums added to zero rows.
theorem outsAt_first (h0 : t.val % 10 = 0) :
    outsAt3 V c t.val t.isLt = (k3_pay3 (iblk3 V c 2 t) (iblk3 V c 3 t) (iblk3 V c 0 t) (iblk3 V c 1 t),
      k3_pay4 (iblk3 V c 2 t) (iblk3 V c 3 t) (iblk3 V c 0 t) (iblk3 V c 1 t) (k3_pay1 (F := Ideal)),
      k3_pay5 (iblk3 V c 2 t) (iblk3 V c 3 t) (iblk3 V c 0 t) (iblk3 V c 1 t) (k3_pay2 (F := Ideal))) := by
  rw [outsAt3_A V c t h0]
  unfold out3_A_4 out3_A_5 out3_A_6
  rw [View.read_writes_eq_canon _ _ _ fun y => cover3_A_4 (y := y) .., View.read_writes_eq_canon _ _ _ fun y => cover3_A_5 (y := y) ..,
    View.read_writes_eq_canon _ _ _ fun y => cover3_A_6 (y := y) ..]
  unfold kernelRun3_A
  dsimp only
  sl_unfold_words
  simp only [View.canon_cons_unit_zero (S := S5000x128) hz, View.canon_cons_unit_zero (S := S1x128) hz, View.readAt_eq_ld,
    (hs3_0 t).read_unread, (hs3_1 t).read_unread, (hs3_2 t).read_unread, (hs3_3 t).read_unread,
    View.ld_unit_zero (S := S5000x128) hz, View.ld_unit_zero (S := S5000x1) hz, View.ld_unit_zero (S := S1x128) hz,
    View.readCov_unit_zero (S := S1x128) _ hz]

-- After a later tile: its block of the activation, and the block's column sums added to the sums so far.
theorem outsAt_later (h0 : ¬t.val % 10 = 0) :
    outsAt3 V c t.val t.isLt = (k3_pay3 (iblk3 V c 2 t) (iblk3 V c 3 t) (iblk3 V c 0 t) (iblk3 V c 1 t),
      k3_pay4 (iblk3 V c 2 t) (iblk3 V c 3 t) (iblk3 V c 0 t) (iblk3 V c 1 t) (outsAt3 V c (t.val - 1) (Nat.lt_of_le_of_lt (Nat.sub_le _ _) t.isLt)).2.1,
      k3_pay5 (iblk3 V c 2 t) (iblk3 V c 3 t) (iblk3 V c 0 t) (iblk3 V c 1 t) (outsAt3 V c (t.val - 1) (Nat.lt_of_le_of_lt (Nat.sub_le _ _) t.isLt)).2.2) := by
  rw [outsAt3_B V c t h0]
  unfold out3_B_4 out3_B_5 out3_B_6
  rw [View.read_writes_eq_canon _ _ _ fun y => cover3_B_4 (y := y) .., View.read_writes_eq_canon _ _ _ fun y => cover3_B_5 (y := y) ..,
    View.read_writes_eq_canon _ _ _ fun y => cover3_B_6 (y := y) ..]
  unfold kernelRun3_B
  dsimp only
  sl_unfold_words
  simp only [View.canon_cons_unit_zero (S := S5000x128) hz, View.canon_cons_unit_zero (S := S1x128) hz, View.readAt_eq_ld,
    (hs3_0 t).read_unread, (hs3_1 t).read_unread, (hs3_2 t).read_unread, (hs3_3 t).read_unread, (hs3_5 t).read_unread, (hs3_6 t).read_unread,
    View.ld_unit_zero (S := S5000x128) hz, View.ld_unit_zero (S := S5000x1) hz, View.ld_unit_zero (S := S1x128) hz]

theorem rd0 (y : S5000x128.Idx) : iblk3 V c 0 t y = V c (Pipeline.arrRef spec3 0) (ix2 (row N_3 t (y 0)) (y 1)) :=
  congrArg _ (emb_tile t y)
theorem rd1 (y : S5000x128.Idx) : iblk3 V c 1 t y = V c (Pipeline.arrRef spec3 1) (ix2 (row N_3 t (y 0)) (y 1)) :=
  congrArg _ (emb_tile t y)
theorem rd2 (y : S5000x1.Idx) : iblk3 V c 2 t y = V c (Pipeline.arrRef spec3 2) (ix2 (row N_3 t (y 0)) (y 1)) :=
  congrArg _ (emb_col t y)
theorem rd3 (y : S1x128.Idx) : iblk3 V c 3 t y = V c (Pipeline.arrRef spec3 3) y := congrArg _ (emb_row t y)

theorem flushed5 (G : Cert.Spec.S1D.Idx → EReal) (hG : ∀ y, (outsAt3 V c t.val t.isLt).2.1 y = G y) :
    (dat3 V c).flushed 5 t = ((cfg3.win 5).blk t).view.read (Elt Ideal) G := by
  show (cfg3.win 5).cut (grid3.coords t) ((dat3 V c).after 5 t) = _
  rw [after3_5]
  funext y
  show (outsAt3 V c t.val t.isLt).2.1 y = G (((cfg3.win 5).blk t).view.emb y)
  exact (hG y).trans (congrArg G (emb_row t y).symm)

theorem flushed6 (G : Cert.Spec.S1D.Idx → EReal) (hG : ∀ y, (outsAt3 V c t.val t.isLt).2.2 y = G y) :
    (dat3 V c).flushed 6 t = ((cfg3.win 6).blk t).view.read (Elt Ideal) G := by
  show (cfg3.win 6).cut (grid3.coords t) ((dat3 V c).after 6 t) = _
  rw [after3_6]
  funext y
  show (outsAt3 V c t.val t.isLt).2.2 y = G (((cfg3.win 6).blk t).view.emb y)
  exact (hG y).trans (congrArg G (emb_row t y).symm)

-- The outputs: the activation, its column sums, and the column sums of its squares.
theorem finals : (dat3 V c).arrAt 4 cfg3.N = PR3 V c ∧ (dat3 V c).arrAt 5 cfg3.N = Cert.Spec.colsumRow (PR3 V c)
    ∧ (dat3 V c).arrAt 6 cfg3.N = Cert.Spec.colsumsqRow (PR3 V c) := by
  obtain ⟨s4, s⟩ := stat_outs N_3 (outsAt3 V c) (iblk3 V c 2) (iblk3 V c 3) (iblk3 V c 0) (iblk3 V c 1) _ _ _ _
    (rd0 V c) (rd1 V c) (rd2 V c) (rd3 V c) (outsAt_first V c) (outsAt_later V c)
  refine ⟨(dat3 V c).arrAt_eq_of_cover 4 _ (fun t _ => ?_) fun i => (cover_tile i).imp fun t h => ⟨flush3_4 t, h⟩,
    (dat3 V c).arrAt_eq_of_cover 5 _ (fun t ht => flushed5 V c t _ fun y => (s t ((flush3_5 t).mp ht) y).1)
      fun i => (cover_last i).imp fun t h => ⟨(flush3_5 t).mpr h.1, h.2⟩,
    (dat3 V c).arrAt_eq_of_cover 6 _ (fun t ht => flushed6 V c t _ fun y => (s t ((flush3_6 t).mp ht) y).2)
      fun i => (cover_last i).imp fun t h => ⟨(flush3_6 t).mpr h.1, h.2⟩⟩
  show (cfg3.win 4).cut (grid3.coords t) ((dat3 V c).after 4 t) = _
  rw [after3_4]
  exact funext fun y => (s4 t y).trans (congrArg (PR3 V c) (emb_tile t y).symm)

end R3

theorem final3_4 : (Gen.dat3 (F := Ideal) V c).arrAt 4 cfg3.N
    = Cert.Spec.preRow (V c (Pipeline.arrRef spec3 0)) (V c (Pipeline.arrRef spec3 1)) (V c (Pipeline.arrRef spec3 2)) (V c (Pipeline.arrRef spec3 3)) :=
  (R3.finals V c).1

theorem final3_5 : (Gen.dat3 (F := Ideal) V c).arrAt 5 cfg3.N
    = Cert.Spec.colsumRow (Cert.Spec.preRow (V c (Pipeline.arrRef spec3 0)) (V c (Pipeline.arrRef spec3 1)) (V c (Pipeline.arrRef spec3 2)) (V c (Pipeline.arrRef spec3 3))) :=
  (R3.finals V c).2.1

theorem final3_6 : (Gen.dat3 (F := Ideal) V c).arrAt 6 cfg3.N
    = Cert.Spec.colsumsqRow (Cert.Spec.preRow (V c (Pipeline.arrRef spec3 0)) (V c (Pipeline.arrRef spec3 1)) (V c (Pipeline.arrRef spec3 2)) (V c (Pipeline.arrRef spec3 3))) :=
  (R3.finals V c).2.2

end Cert.KernelIdeal.RegVal

end
-- ==== Proof.Reg4.lean ====
import proofs.«401582_j39573828665766_2_alg».proof.Proof.RegBn

noncomputable section

namespace Cert.KernelIdeal.RegVal

open Idealize.ShloMosaic Idealize.ShloMosaic.TcCoe Idealize.SL.Sem Cert.KernelIdeal Cert.KernelIdeal.Gen Bn

variable (V : (c : Dev nD) → (b : Ref sig .tc) → Buf (Elt Ideal) ((c : Thread nD τ).loc b))

theorem Bn.idx4 : ∀ t : Fin cfg4.N, (win4_0.index t = ![t.val, 0] ∧ win4_6.index t = ![t.val, 0]) ∧ win4_1.index t = 0 ∧
    win4_2.index t = 0 ∧ win4_3.index t = 0 ∧ win4_4.index t = 0 ∧ win4_5.index t = 0 :=
  (by decide +kernel : ∀ t : Fin grid4.N, _)

/-- Each point writes its rows of the product, and the ten blocks of rows cover the array. -/
theorem final4 (c : Dev nD) : (Gen.dat4 (F := Ideal) V c).arrAt 6 cfg4.N
    = Cert.Spec.mm (Cert.Spec.actRow (V c (Pipeline.arrRef spec4 0)) (V c (Pipeline.arrRef spec4 2))
        (V c (Pipeline.arrRef spec4 3)) (V c (Pipeline.arrRef spec4 4)) (V c (Pipeline.arrRef spec4 5)))
        (V c (Pipeline.arrRef spec4 1)) :=
  (dat4 (F := Ideal) V c).arrAt_eq_of_cover 6 _
    (fun t _ => (after4_6 V c t).trans (bn_blk _ _ _ _ _ _ (t.isLt.trans_eq N_4) (idx4 t)))
    fun i => (cover_rows N_4 (fun t => (idx4 t).1.2) _ i).imp fun t h => ⟨flush4_6 t, mem_whole_slice h⟩

end Cert.KernelIdeal.RegVal

end
-- ==== Proof.KVal1.lean ====
import proofs.«401582_j39573828665766_2_alg».proof.Proof.Gen.KernelIdeal.Frame
import proofs.«401582_j39573828665766_2_alg».proof.Proof.Spec
import proofs.«401582_j39573828665766_2_alg».proof.Proof.KCtx
import proofs.«401582_j39573828665766_2_alg».proof.Proof.KHost
import proofs.«401582_j39573828665766_2_alg».proof.Proof.Reg0
import proofs.«401582_j39573828665766_2_alg».proof.Proof.Reg1
import proofs.«401582_j39573828665766_2_alg».proof.Proof.Reg2
import proofs.«401582_j39573828665766_2_alg».proof.Proof.Reg3
import proofs.«401582_j39573828665766_2_alg».proof.Proof.Reg4

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

set_option quotPrecheck false in
local notation:max "♯" b:max => (Proc.devRef (τ := τ) .tc b : DevRef τ sig)
set_option quotPrecheck false in
local notation:max "𝐚" b:max => m ((c : Thread nD τ).loc b)

macro "host_keep" : tactic => `(tactic|
  exact StableHlo.after_of_forall_not_mem _ _ (List.forall_iff_forall_mem.mp (by
    simp only [hostOps0, hostOps1, hostOps2, hostOps3, hostOps4,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W0_at (b : Ref sig .tc) : W0 m ρ c (♯b) = 𝐚 b := rfl

def args : List (Ref sig .tc) :=
  [main_arg0, main_arg2, main_arg3, main_arg4, main_arg5, main_arg6, main_arg7, main_arg8, main_arg9, main_arg10,
    main_arg11, main_arg12]

theorem W1_arg : ∀ b ∈ args, W1 m ρ c (♯b) = 𝐚 b := by
  intro b hb
  refine Eq.trans ?_ (W0_at m ρ c b)
  simp only [args, List.mem_cons, List.not_mem_nil, or_false] at hb
  rcases hb with rfl | rfl | rfl | rfl | rfl | rfl | rfl | rfl | rfl | rfl | rfl | rfl <;> host_keep

def kept : List (Ref sig .tc) :=
  [main_arg2, main_arg4, main_arg5, main_arg6, main_arg7, main_arg8, main_arg9, main_arg10, main_arg11, main_arg12,
    main_call0_v1, main_call0_v3, main_call0_v27, main_call0_v12]

macro "kept_cases" hb:ident : tactic => `(tactic| (
  simp only [kept, List.mem_cons, List.not_mem_nil, or_false] at $hb:ident
  rcases $hb:ident with h | h | h | h | h | h | h | h | h | h | h | h | h | h <;> subst h))

theorem keep2 : ∀ b ∈ kept, W2 m ρ c (♯b) = W1 m ρ c (♯b) := by
  intro b hb
  kept_cases hb <;> exact W2_of_ne m ρ c _ (by decide)

theorem keep3 : ∀ b ∈ kept, W3 m ρ c (♯b) = W1 m ρ c (♯b) := by
  intro b hb
  refine Eq.trans ?_ (keep2 m ρ c b hb)
  kept_cases hb <;> host_keep

theorem keep4 : ∀ b ∈ kept, W4 m ρ c (♯b) = W1 m ρ c (♯b) := by
  intro b hb
  refine Eq.trans ?_ (keep3 m ρ c b hb)
  kept_cases hb
  all_goals first
    | exact W4_of_ne m ρ c _ (by decide)
    | exact (W4_arr m ρ c 2).trans (((dat1 (V3 m ρ) c).arrAt_in 2 rfl _).trans (A_eq1 (V3 m ρ) c 2))

theorem keep5 : ∀ b ∈ kept, W5 m ρ c (♯b) = W1 m ρ c (♯b) := by
  intro b hb
  refine Eq.trans ?_ (keep4 m ρ c b hb)
  kept_cases hb <;> host_keep

theorem keep6 : ∀ b ∈ kept, W6 m ρ c (♯b) = W1 m ρ c (♯b) := by
  intro b hb
  refine Eq.trans ?_ (keep5 m ρ c b hb)
  kept_cases hb <;> exact W6_of_ne m ρ c _ (by decide)

theorem keep7 : ∀ b ∈ kept, W7 m ρ c (♯b) = W1 m ρ c (♯b) := by
  intro b hb
  refine Eq.trans ?_ (keep6 m ρ c b hb)
  kept_cases hb <;> host_keep

theorem keep8 : ∀ b ∈ kept, W8 m ρ c (♯b) = W1 m ρ c (♯b) := by
  intro b hb
  refine Eq.trans ?_ (keep7 m ρ c b hb)
  kept_cases hb
  all_goals first
    | exact W8_of_ne m ρ c _ (by decide)
    | exact (W8_arr m ρ c 2).trans (((dat3 (V7 m ρ) c).arrAt_in 2 rfl _).trans (A_eq3 (V7 m ρ) c 2))

theorem keep9 : ∀ b ∈ kept, W9 m ρ c (♯b) = W1 m ρ c (♯b) := by
  intro b hb
  refine Eq.trans ?_ (keep8 m ρ c b hb)
  kept_cases hb <;> host_keep

theorem keep10 : ∀ b ∈ kept, W10 m ρ c (♯b) = W1 m ρ c (♯b) := by
  intro b hb
  refine Eq.trans ?_ (keep9 m ρ c b hb)
  kept_cases hb <;> exact W10_of_ne m ρ c _ (by decide)

theorem kept_arg {W : Valuation τ sig (Elt Ideal)} (b : Ref sig .tc) (hk : W (♯b) = W1 m ρ c (♯b)) (ha : b ∈ args) :
    W (♯b) = 𝐚 b := hk.trans (W1_arg m ρ c b ha)

theorem W1_v1 : W1 m ρ c (♯main_call0_v1) = KCtx.src (𝐚 main_arg1) := KHost.h0_v1 (W0 m ρ c)
theorem W1_v3 : W1 m ρ c (♯main_call0_v3) = KCtx.dst (𝐚 main_arg1) := KHost.h0_v3 (W0 m ρ c)
theorem W1_v27 : W1 m ρ c (♯main_call0_v27) = KCtx.norm (𝐚 main_arg1) := KHost.h0_v27 (W0 m ρ c)
theorem W1_v12 : W1 m ρ c (♯main_call0_v12) = KCtx.d2col (𝐚 main_arg1) := KHost.h0_v12 (W0 m ρ c)

theorem agg_of {W : Valuation τ sig (Elt Ideal)} (h : Cert.Spec.SND.Idx → EReal)
    (h1 : W (♯main_call0_v1) = W1 m ρ c (♯main_call0_v1)) (h3 : W (♯main_call0_v3) = W1 m ρ c (♯main_call0_v3))
    (h27 : W (♯main_call0_v27) = W1 m ρ c (♯main_call0_v27)) :
    KCtx.aggOf (W (♯main_call0_v1)) (W (♯main_call0_v3)) (W (♯main_call0_v27)) h = (KCtx.ctx (𝐚 main_arg1)).agg h := by
  rw [h1, h3, h27, W1_v1, W1_v3, W1_v27]
  rfl

def P1 : Cert.Spec.SND.Idx → EReal :=
  Cert.Spec.layer (KCtx.ctx (𝐚 main_arg1)) (𝐚 main_arg0) (𝐚 main_arg3) (𝐚 main_arg4)

def A1 : Cert.Spec.SND.Idx → EReal := Cert.Spec.bnK (P1 m c) (𝐚 main_arg5) (𝐚 main_arg6)

def P2 : Cert.Spec.SND.Idx → EReal :=
  Cert.Spec.layer (KCtx.ctx (𝐚 main_arg1)) (A1 m c) (Cert.Spec.sl3 (𝐚 main_arg7) 0) (Cert.Spec.sl2 (𝐚 main_arg8) 0)

def A2 : Cert.Spec.SND.Idx → EReal :=
  Cert.Spec.bnK (P2 m c) (Cert.Spec.sl2 (𝐚 main_arg9) 0) (Cert.Spec.sl2 (𝐚 main_arg10) 0)

theorem W2_v28 : W2 m ρ c (♯main_call0_v28) = Cert.Spec.mm (𝐚 main_arg0) (𝐚 main_arg3) := by
  refine (W2_arr m ρ c 2).trans ((RegVal.final0 (V1 m ρ) c).trans ?_)
  show Cert.Spec.mm (W1 m ρ c (♯main_arg0)) (W1 m ρ c (♯main_arg3)) = _
  rw [W1_arg m ρ c main_arg0 (by decide), W1_arg m ρ c main_arg3 (by decide)]

theorem W3_v41 : W3 m ρ c (♯main_call0_v41)
    = (KCtx.ctx (𝐚 main_arg1)).agg (Cert.Spec.mm (𝐚 main_arg0) (𝐚 main_arg3)) := by
  refine (KHost.h1_v41 (W2 m ρ c)).trans ?_
  rw [W2_v28]
  exact agg_of m ρ c _ (keep2 m ρ c _ (by decide)) (keep2 m ρ c _ (by decide)) (keep2 m ρ c _ (by decide))

theorem W3_v42 : W3 m ρ c (♯main_call0_v42) = Cert.Spec.rowOf (𝐚 main_arg4) := by
  refine (KHost.h1_v42 (W2 m ρ c)).trans ?_
  rw [kept_arg m ρ c main_arg4 (keep2 m ρ c _ (by decide)) (by decide), KPat.bRow_eq]

theorem W3_v28 : W3 m ρ c (♯main_call0_v28) = Cert.Spec.mm (𝐚 main_arg0) (𝐚 main_arg3) := by
  refine Eq.trans ?_ (W2_v28 m ρ c)
  host_keep

theorem W3_v12 : W3 m ρ c (♯main_call0_v12) = KCtx.d2col (𝐚 main_arg1) :=
  (keep3 m ρ c _ (by decide)).trans (W1_v12 m ρ c)

theorem PR1_eq : RegVal.R1.PR1 (V3 m ρ) c = P1 m c := by
  show Cert.Spec.preRow (W3 m ρ c (♯main_call0_v41)) (W3 m ρ c (♯main_call0_v28)) (W3 m ρ c (♯main_call0_v12))
    (W3 m ρ c (♯main_call0_v42)) = _
  rw [W3_v41, W3_v28, W3_v12, W3_v42, KPat.d2col_eq, Cert.Spec.preRow_colOf]
  rfl

theorem W4_v43_0 : W4 m ρ c (♯main_call0_v43_0) = P1 m c :=
  (W4_arr m ρ c 4).trans ((RegVal.final1_4 (V3 m ρ) c).trans (PR1_eq m ρ c))
theorem W4_v43_1 : W4 m ρ c (♯main_call0_v43_1) = Cert.Spec.colsumRow (P1 m c) :=
  (W4_arr m ρ c 5).trans ((RegVal.final1_5 (V3 m ρ) c).trans (congrArg Cert.Spec.colsumRow (PR1_eq m ρ c)))
theorem W4_v43_2 : W4 m ρ c (♯main_call0_v43_2) = Cert.Spec.colsumsqRow (P1 m c) :=
  (W4_arr m ρ c 6).trans ((RegVal.final1_6 (V3 m ρ) c).trans (congrArg Cert.Spec.colsumsqRow (PR1_eq m ρ c)))

theorem W5_v43_0 : W5 m ρ c (♯main_call0_v43_0) = P1 m c := by
  refine Eq.trans ?_ (W4_v43_0 m ρ c)
  host_keep

theorem W5_v53 : W5 m ρ c (♯main_call0_v53) = Cert.Spec.sl3 (𝐚 main_arg7) 0 := by
  refine (KHost.h2_v53 (W4 m ρ c)).trans ?_
  rw [kept_arg m ρ c main_arg7 (keep4 m ρ c _ (by decide)) (by decide), KPat.wSlice_eq]

theorem W5_v55 : W5 m ρ c (♯main_call0_v55) = Cert.Spec.sl2 (𝐚 main_arg8) 0 := by
  refine (KHost.h2_v55 (W4 m ρ c)).trans ?_
  rw [kept_arg m ρ c main_arg8 (keep4 m ρ c _ (by decide)) (by decide), KPat.vSlice_eq]

theorem W5_v56 : W5 m ρ c (♯main_call0_v56) = Cert.Spec.rowOf (𝐚 main_arg5) := by
  refine (KHost.h2_v56 (W4 m ρ c)).trans ?_
  rw [kept_arg m ρ c main_arg5 (keep4 m ρ c _ (by decide)) (by decide), KPat.bRow_eq]

theorem W5_v57 : W5 m ρ c (♯main_call0_v57) = Cert.Spec.rowOf (𝐚 main_arg6) := by
  refine (KHost.h2_v57 (W4 m ρ c)).trans ?_
  rw [kept_arg m ρ c main_arg6 (keep4 m ρ c _ (by decide)) (by decide), KPat.bRow_eq]

theorem W5_v58 : W5 m ρ c (♯main_call0_v58) = Cert.Spec.rowOf (Cert.Spec.muV (P1 m c)) := by
  refine (KHost.h2_v58 (W4 m ρ c)).trans ?_
  rw [W4_v43_1, KPat.bRow_meanOf]

theorem W5_v59 : W5 m ρ c (♯main_call0_v59) = Cert.Spec.rowOf (Cert.Spec.varK (P1 m c)) := by
  refine (KHost.h2_v59 (W4 m ρ c)).trans ?_
  rw [W4_v43_1, W4_v43_2, KPat.bRow_varOf]

theorem W6_v60 : W6 m ρ c (♯main_call0_v60) = Cert.Spec.mm (A1 m c) (Cert.Spec.sl3 (𝐚 main_arg7) 0) := by
  refine (W6_arr m ρ c 6).trans ((RegVal.final2 (V5 m ρ) c).trans ?_)
  show Cert.Spec.mm (Cert.Spec.actRow (W5 m ρ c (♯main_call0_v43_0)) (W5 m ρ c (♯main_call0_v56))
    (W5 m ρ c (♯main_call0_v57)) (W5 m ρ c (♯main_call0_v58)) (W5 m ρ c (♯main_call0_v59))) (W5 m ρ c (♯main_call0_v53)) = _
  rw [W5_v43_0, W5_v56, W5_v57, W5_v58, W5_v59, W5_v53, Cert.Spec.actRow_rowOf]
  rfl

theorem W6_v55 : W6 m ρ c (♯main_call0_v55) = Cert.Spec.sl2 (𝐚 main_arg8) 0 :=
  (W6_of_ne m ρ c main_call0_v55 (by decide)).trans (W5_v55 m ρ c)

theorem W7_v73 : W7 m ρ c (♯main_call0_v73)
    = (KCtx.ctx (𝐚 main_arg1)).agg (Cert.Spec.mm (A1 m c) (Cert.Spec.sl3 (𝐚 main_arg7) 0)) := by
  refine (KHost.h3_v73 (W6 m ρ c)).trans ?_
  rw [W6_v60]
  exact agg_of m ρ c _ (keep6 m ρ c _ (by decide)) (keep6 m ρ c _ (by decide)) (keep6 m ρ c _ (by decide))

theorem W7_v74 : W7 m ρ c (♯main_call0_v74) = Cert.Spec.rowOf (Cert.Spec.sl2 (𝐚 main_arg8) 0) := by
  refine (KHost.h3_v74 (W6 m ρ c)).trans ?_
  rw [W6_v55, KPat.bRow_eq]

theorem W7_v60 : W7 m ρ c (♯main_call0_v60) = Cert.Spec.mm (A1 m c) (Cert.Spec.sl3 (𝐚 main_arg7) 0) := by
  refine Eq.trans ?_ (W6_v60 m ρ c)
  host_keep

theorem W7_v12 : W7 m ρ c (♯main_call0_v12) = KCtx.d2col (𝐚 main_arg1) :=
  (keep7 m ρ c _ (by decide)).trans (W1_v12 m ρ c)

theorem PR3_eq : RegVal.R3.PR3 (V7 m ρ) c = P2 m c := by
  show Cert.Spec.preRow (W7 m ρ c (♯main_call0_v73)) (W7 m ρ c (♯main_call0_v60)) (W7 m ρ c (♯main_call0_v12))
    (W7 m ρ c (♯main_call0_v74)) = _
  rw [W7_v73, W7_v60, W7_v12, W7_v74, KPat.d2col_eq, Cert.Spec.preRow_colOf]
  rfl

theorem W8_v75_0 : W8 m ρ c (♯main_call0_v75_0) = P2 m c :=
  (W8_arr m ρ c 4).trans ((RegVal.final3_4 (V7 m ρ) c).trans (PR3_eq m ρ c))
theorem W8_v75_1 : W8 m ρ c (♯main_call0_v75_1) = Cert.Spec.colsumRow (P2 m c) :=
  (W8_arr m ρ c 5).trans ((RegVal.final3_5 (V7 m ρ) c).trans (congrArg Cert.Spec.colsumRow (PR3_eq m ρ c)))
theorem W8_v75_2 : W8 m ρ c (♯main_call0_v75_2) = Cert.Spec.colsumsqRow (P2 m c) :=
  (W8_arr m ρ c 6).trans ((RegVal.final3_6 (V7 m ρ) c).trans (congrArg Cert.Spec.colsumsqRow (PR3_eq m ρ c)))

theorem W9_v75_0 : W9 m ρ c (♯main_call0_v75_0) = P2 m c := by
  refine Eq.trans ?_ (W8_v75_0 m ρ c)
  host_keep

theorem W9_v89 : W9 m ρ c (♯main_call0_v89) = Cert.Spec.sl3 (𝐚 main_arg7) 1 := by
  refine (KHost.h4_v89 (W8 m ρ c)).trans ?_
  rw [kept_arg m ρ c main_arg7 (keep8 m ρ c _ (by decide)) (by decide), KPat.wSlice_eq]

theorem W9_v91 : W9 m ρ c (♯main_call0_v91) = Cert.Spec.sl2 (𝐚 main_arg8) 1 := by
  refine (KHost.h4_v91 (W8 m ρ c)).trans ?_
  rw [kept_arg m ρ c main_arg8 (keep8 m ρ c _ (by decide)) (by decide), KPat.vSlice_eq]

theorem W9_v92 : W9 m ρ c (♯main_call0_v92) = Cert.Spec.rowOf (Cert.Spec.sl2 (𝐚 main_arg9) 0) := by
  refine (KHost.h4_v92 (W8 m ρ c)).trans ?_
  rw [kept_arg m ρ c main_arg9 (keep8 m ρ c _ (by decide)) (by decide), KPat.vSlice_eq, KPat.bRow_eq]

theorem W9_v93 : W9 m ρ c (♯main_call0_v93) = Cert.Spec.rowOf (Cert.Spec.sl2 (𝐚 main_arg10) 0) := by
  refine (KHost.h4_v93 (W8 m ρ c)).trans ?_
  rw [kept_arg m ρ c main_arg10 (keep8 m ρ c _ (by decide)) (by decide), KPat.vSlice_eq, KPat.bRow_eq]

theorem W9_v94 : W9 m ρ c (♯main_call0_v94) = Cert.Spec.rowOf (Cert.Spec.muV (P2 m c)) := by
  refine (KHost.h4_v94 (W8 m ρ c)).trans ?_
  rw [W8_v75_1, KPat.bRow_meanOf]

theorem W9_v95 : W9 m ρ c (♯main_call0_v95) = Cert.Spec.rowOf (Cert.Spec.varK (P2 m c)) := by
  refine (KHost.h4_v95 (W8 m ρ c)).trans ?_
  rw [W8_v75_1, W8_v75_2, KPat.bRow_varOf]

theorem W10_v96 : W10 m ρ c (♯main_call0_v96) = Cert.Spec.mm (A2 m c) (Cert.Spec.sl3 (𝐚 main_arg7) 1) := by
  refine (W10_arr m ρ c 6).trans ((RegVal.final4 (V9 m ρ) c).trans ?_)
  show Cert.Spec.mm (Cert.Spec.actRow (W9 m ρ c (♯main_call0_v75_0)) (W9 m ρ c (♯main_call0_v92))
    (W9 m ρ c (♯main_call0_v93)) (W9 m ρ c (♯main_call0_v94)) (W9 m ρ c (♯main_call0_v95))) (W9 m ρ c (♯main_call0_v89)) = _
  rw [W9_v75_0, W9_v92, W9_v93, W9_v94, W9_v95, W9_v89, Cert.Spec.actRow_rowOf]
  rfl

theorem W10_v91 : W10 m ρ c (♯main_call0_v91) = Cert.Spec.sl2 (𝐚 main_arg8) 1 :=
  (W10_of_ne m ρ c main_call0_v91 (by decide)).trans (W9_v91 m ρ c)

theorem W10_v1 : W10 m ρ c (♯main_call0_v1) = KCtx.src (𝐚 main_arg1) :=
  (keep10 m ρ c _ (by decide)).trans (W1_v1 m ρ c)
theorem W10_v3 : W10 m ρ c (♯main_call0_v3) = KCtx.dst (𝐚 main_arg1) :=
  (keep10 m ρ c _ (by decide)).trans (W1_v3 m ρ c)
theorem W10_v27 : W10 m ρ c (♯main_call0_v27) = KCtx.norm (𝐚 main_arg1) :=
  (keep10 m ρ c _ (by decide)).trans (W1_v27 m ρ c)
theorem W10_v12 : W10 m ρ c (♯main_call0_v12) = KCtx.d2col (𝐚 main_arg1) :=
  (keep10 m ρ c _ (by decide)).trans (W1_v12 m ρ c)
theorem W10_arg (b : Ref sig .tc) (hk : b ∈ kept) (ha : b ∈ args) : W10 m ρ c (♯b) = 𝐚 b :=
  kept_arg m ρ c b (keep10 m ρ c b hk) ha

end Cert.KernelIdeal.KVal

end
-- ==== Proof.Reg5.lean ====
import proofs.«401582_j39573828665766_2_alg».proof.Proof.Gen.KernelIdeal.Frame
import proofs.«401582_j39573828665766_2_alg».proof.Proof.RegStat

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RegVal.Stat

variable (V : (c : Dev nD) → (b : Ref sig .tc) → Buf (Elt Ideal) ((c : Thread nD τ).loc b)) (c : Dev nD)

namespace R5

abbrev PR5 : Cert.Spec.SND.Idx → EReal :=
  Cert.Spec.preRow (V c (Pipeline.arrRef spec5 0)) (V c (Pipeline.arrRef spec5 1)) (V c (Pipeline.arrRef spec5 2)) (V c (Pipeline.arrRef spec5 3))

variable (t : Fin cfg5.N)

-- After the first tile: its block of the activation, and the block's column sums added to zero rows.
theorem outsAt_first (h0 : t.val % 10 = 0) :
    outsAt5 V c t.val t.isLt = (k5_pay3 (iblk5 V c 2 t) (iblk5 V c 3 t) (iblk5 V c 0 t) (iblk5 V c 1 t),
      k5_pay4 (iblk5 V c 2 t) (iblk5 V c 3 t) (iblk5 V c 0 t) (iblk5 V c 1 t) (k5_pay1 (F := Ideal)),
      k5_pay5 (iblk5 V c 2 t) (iblk5 V c 3 t) (iblk5 V c 0 t) (iblk5 V c 1 t) (k5_pay2 (F := Ideal))) := by
  rw [outsAt5_A V c t h0]
  unfold out5_A_4 out5_A_5 out5_A_6
  rw [View.read_writes_eq_canon _ _ _ fun y => cover5_A_4 (y := y) .., View.read_writes_eq_canon _ _ _ fun y => cover5_A_5 (y := y) ..,
    View.read_writes_eq_canon _ _ _ fun y => cover5_A_6 (y := y) ..]
  unfold kernelRun5_A
  dsimp only
  sl_unfold_words
  simp only [View.canon_cons_unit_zero (S := S5000x128) hz, View.canon_cons_unit_zero (S := S1x128) hz, View.readAt_eq_ld,
    (hs5_0 t).read_unread, (hs5_1 t).read_unread, (hs5_2 t).read_unread, (hs5_3 t).read_unread,
    View.ld_unit_zero (S := S5000x128) hz, View.ld_unit_zero (S := S5000x1) hz, View.ld_unit_zero (S := S1x128) hz,
    View.readCov_unit_zero (S := S1x128) _ hz]

-- After a later tile: its block of the activation, and the block's column sums added to the sums so far.
theorem outsAt_later (h0 : ¬t.val % 10 = 0) :
    outsAt5 V c t.val t.isLt = (k5_pay3 (iblk5 V c 2 t) (iblk5 V c 3 t) (iblk5 V c 0 t) (iblk5 V c 1 t),
      k5_pay4 (iblk5 V c 2 t) (iblk5 V c 3 t) (iblk5 V c 0 t) (iblk5 V c 1 t) (outsAt5 V c (t.val - 1) (Nat.lt_of_le_of_lt (Nat.sub_le _ _) t.isLt)).2.1,
      k5_pay5 (iblk5 V c 2 t) (iblk5 V c 3 t) (iblk5 V c 0 t) (iblk5 V c 1 t) (outsAt5 V c (t.val - 1) (Nat.lt_of_le_of_lt (Nat.sub_le _ _) t.isLt)).2.2) := by
  rw [outsAt5_B V c t h0]
  unfold out5_B_4 out5_B_5 out5_B_6
  rw [View.read_writes_eq_canon _ _ _ fun y => cover5_B_4 (y := y) .., View.read_writes_eq_canon _ _ _ fun y => cover5_B_5 (y := y) ..,
    View.read_writes_eq_canon _ _ _ fun y => cover5_B_6 (y := y) ..]
  unfold kernelRun5_B
  dsimp only
  sl_unfold_words
  simp only [View.canon_cons_unit_zero (S := S5000x128) hz, View.canon_cons_unit_zero (S := S1x128) hz, View.readAt_eq_ld,
    (hs5_0 t).read_unread, (hs5_1 t).read_unread, (hs5_2 t).read_unread, (hs5_3 t).read_unread, (hs5_5 t).read_unread, (hs5_6 t).read_unread,
    View.ld_unit_zero (S := S5000x128) hz, View.ld_unit_zero (S := S5000x1) hz, View.ld_unit_zero (S := S1x128) hz]

theorem rd0 (y : S5000x128.Idx) : iblk5 V c 0 t y = V c (Pipeline.arrRef spec5 0) (ix2 (row N_5 t (y 0)) (y 1)) :=
  congrArg _ (emb_tile t y)
theorem rd1 (y : S5000x128.Idx) : iblk5 V c 1 t y = V c (Pipeline.arrRef spec5 1) (ix2 (row N_5 t (y 0)) (y 1)) :=
  congrArg _ (emb_tile t y)
theorem rd2 (y : S5000x1.Idx) : iblk5 V c 2 t y = V c (Pipeline.arrRef spec5 2) (ix2 (row N_5 t (y 0)) (y 1)) :=
  congrArg _ (emb_col t y)
theorem rd3 (y : S1x128.Idx) : iblk5 V c 3 t y = V c (Pipeline.arrRef spec5 3) y := congrArg _ (emb_row t y)

theorem flushed5 (G : Cert.Spec.S1D.Idx → EReal) (hG : ∀ y, (outsAt5 V c t.val t.isLt).2.1 y = G y) :
    (dat5 V c).flushed 5 t = ((cfg5.win 5).blk t).view.read (Elt Ideal) G := by
  show (cfg5.win 5).cut (grid5.coords t) ((dat5 V c).after 5 t) = _
  rw [after5_5]
  funext y
  show (outsAt5 V c t.val t.isLt).2.1 y = G (((cfg5.win 5).blk t).view.emb y)
  exact (hG y).trans (congrArg G (emb_row t y).symm)

theorem flushed6 (G : Cert.Spec.S1D.Idx → EReal) (hG : ∀ y, (outsAt5 V c t.val t.isLt).2.2 y = G y) :
    (dat5 V c).flushed 6 t = ((cfg5.win 6).blk t).view.read (Elt Ideal) G := by
  show (cfg5.win 6).cut (grid5.coords t) ((dat5 V c).after 6 t) = _
  rw [after5_6]
  funext y
  show (outsAt5 V c t.val t.isLt).2.2 y = G (((cfg5.win 6).blk t).view.emb y)
  exact (hG y).trans (congrArg G (emb_row t y).symm)

-- The outputs: the activation, its column sums, and the column sums of its squares.
theorem finals : (dat5 V c).arrAt 4 cfg5.N = PR5 V c ∧ (dat5 V c).arrAt 5 cfg5.N = Cert.Spec.colsumRow (PR5 V c)
    ∧ (dat5 V c).arrAt 6 cfg5.N = Cert.Spec.colsumsqRow (PR5 V c) := by
  obtain ⟨s4, s⟩ := stat_outs N_5 (outsAt5 V c) (iblk5 V c 2) (iblk5 V c 3) (iblk5 V c 0) (iblk5 V c 1) _ _ _ _
    (rd0 V c) (rd1 V c) (rd2 V c) (rd3 V c) (outsAt_first V c) (outsAt_later V c)
  refine ⟨(dat5 V c).arrAt_eq_of_cover 4 _ (fun t _ => ?_) fun i => (cover_tile i).imp fun t h => ⟨flush5_4 t, h⟩,
    (dat5 V c).arrAt_eq_of_cover 5 _ (fun t ht => flushed5 V c t _ fun y => (s t ((flush5_5 t).mp ht) y).1)
      fun i => (cover_last i).imp fun t h => ⟨(flush5_5 t).mpr h.1, h.2⟩,
    (dat5 V c).arrAt_eq_of_cover 6 _ (fun t ht => flushed6 V c t _ fun y => (s t ((flush5_6 t).mp ht) y).2)
      fun i => (cover_last i).imp fun t h => ⟨(flush5_6 t).mpr h.1, h.2⟩⟩
  show (cfg5.win 4).cut (grid5.coords t) ((dat5 V c).after 4 t) = _
  rw [after5_4]
  exact funext fun y => (s4 t y).trans (congrArg (PR5 V c) (emb_tile t y).symm)

end R5

theorem final5_4 : (Gen.dat5 (F := Ideal) V c).arrAt 4 cfg5.N
    = Cert.Spec.preRow (V c (Pipeline.arrRef spec5 0)) (V c (Pipeline.arrRef spec5 1)) (V c (Pipeline.arrRef spec5 2)) (V c (Pipeline.arrRef spec5 3)) :=
  (R5.finals V c).1

theorem final5_5 : (Gen.dat5 (F := Ideal) V c).arrAt 5 cfg5.N
    = Cert.Spec.colsumRow (Cert.Spec.preRow (V c (Pipeline.arrRef spec5 0)) (V c (Pipeline.arrRef spec5 1)) (V c (Pipeline.arrRef spec5 2)) (V c (Pipeline.arrRef spec5 3))) :=
  (R5.finals V c).2.1

theorem final5_6 : (Gen.dat5 (F := Ideal) V c).arrAt 6 cfg5.N
    = Cert.Spec.colsumsqRow (Cert.Spec.preRow (V c (Pipeline.arrRef spec5 0)) (V c (Pipeline.arrRef spec5 1)) (V c (Pipeline.arrRef spec5 2)) (V c (Pipeline.arrRef spec5 3))) :=
  (R5.finals V c).2.2

end Cert.KernelIdeal.RegVal

end
-- ==== Proof.Reg6.lean ====
import proofs.«401582_j39573828665766_2_alg».proof.Proof.RegBn

noncomputable section

namespace Cert.KernelIdeal.RegVal

open Idealize.ShloMosaic Idealize.ShloMosaic.TcCoe Idealize.SL.Sem Cert.KernelIdeal Cert.KernelIdeal.Gen Bn

variable (V : (c : Dev nD) → (b : Ref sig .tc) → Buf (Elt Ideal) ((c : Thread nD τ).loc b))

theorem Bn.idx6 : ∀ t : Fin cfg6.N, (win6_0.index t = ![t.val, 0] ∧ win6_6.index t = ![t.val, 0]) ∧ win6_1.index t = 0 ∧
    win6_2.index t = 0 ∧ win6_3.index t = 0 ∧ win6_4.index t = 0 ∧ win6_5.index t = 0 :=
  (by decide +kernel : ∀ t : Fin grid6.N, _)

/-- Each point writes its rows of the product, and the ten blocks of rows cover the array. -/
theorem final6 (c : Dev nD) : (Gen.dat6 (F := Ideal) V c).arrAt 6 cfg6.N
    = Cert.Spec.mm (Cert.Spec.actRow (V c (Pipeline.arrRef spec6 0)) (V c (Pipeline.arrRef spec6 2))
        (V c (Pipeline.arrRef spec6 3)) (V c (Pipeline.arrRef spec6 4)) (V c (Pipeline.arrRef spec6 5)))
        (V c (Pipeline.arrRef spec6 1)) :=
  (dat6 (F := Ideal) V c).arrAt_eq_of_cover 6 _
    (fun t _ => (after6_6 V c t).trans (bn_blk _ _ _ _ _ _ (t.isLt.trans_eq N_6) (idx6 t)))
    fun i => (cover_rows N_6 (fun t => (idx6 t).1.2) _ i).imp fun t h => ⟨flush6_6 t, mem_whole_slice h⟩

end Cert.KernelIdeal.RegVal

end
-- ==== Proof.Reg7.lean ====
import proofs.«401582_j39573828665766_2_alg».proof.Proof.Gen.KernelIdeal.Frame
import proofs.«401582_j39573828665766_2_alg».proof.Proof.RegStat

noncomputable section

namespace Cert.KernelIdeal.RegVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RegVal.Stat

variable (V : (c : Dev nD) → (b : Ref sig .tc) → Buf (Elt Ideal) ((c : Thread nD τ).loc b)) (c : Dev nD)

namespace R7

abbrev PR7 : Cert.Spec.SND.Idx → EReal :=
  Cert.Spec.preRow (V c (Pipeline.arrRef spec7 0)) (V c (Pipeline.arrRef spec7 1)) (V c (Pipeline.arrRef spec7 2)) (V c (Pipeline.arrRef spec7 3))

variable (t : Fin cfg7.N)

-- After the first tile: its block of the activation, and the block's column sums added to zero rows.
theorem outsAt_first (h0 : t.val % 10 = 0) :
    outsAt7 V c t.val t.isLt = (k7_pay3 (iblk7 V c 2 t) (iblk7 V c 3 t) (iblk7 V c 0 t) (iblk7 V c 1 t),
      k7_pay4 (iblk7 V c 2 t) (iblk7 V c 3 t) (iblk7 V c 0 t) (iblk7 V c 1 t) (k7_pay1 (F := Ideal)),
      k7_pay5 (iblk7 V c 2 t) (iblk7 V c 3 t) (iblk7 V c 0 t) (iblk7 V c 1 t) (k7_pay2 (F := Ideal))) := by
  rw [outsAt7_A V c t h0]
  unfold out7_A_4 out7_A_5 out7_A_6
  rw [View.read_writes_eq_canon _ _ _ fun y => cover7_A_4 (y := y) .., View.read_writes_eq_canon _ _ _ fun y => cover7_A_5 (y := y) ..,
    View.read_writes_eq_canon _ _ _ fun y => cover7_A_6 (y := y) ..]
  unfold kernelRun7_A
  dsimp only
  sl_unfold_words
  simp only [View.canon_cons_unit_zero (S := S5000x128) hz, View.canon_cons_unit_zero (S := S1x128) hz, View.readAt_eq_ld,
    (hs7_0 t).read_unread, (hs7_1 t).read_unread, (hs7_2 t).read_unread, (hs7_3 t).read_unread,
    View.ld_unit_zero (S := S5000x128) hz, View.ld_unit_zero (S := S5000x1) hz, View.ld_unit_zero (S := S1x128) hz,
    View.readCov_unit_zero (S := S1x128) _ hz]

-- After a later tile: its block of the activation, and the block's column sums added to the sums so far.
theorem outsAt_later (h0 : ¬t.val % 10 = 0) :
    outsAt7 V c t.val t.isLt = (k7_pay3 (iblk7 V c 2 t) (iblk7 V c 3 t) (iblk7 V c 0 t) (iblk7 V c 1 t),
      k7_pay4 (iblk7 V c 2 t) (iblk7 V c 3 t) (iblk7 V c 0 t) (iblk7 V c 1 t) (outsAt7 V c (t.val - 1) (Nat.lt_of_le_of_lt (Nat.sub_le _ _) t.isLt)).2.1,
      k7_pay5 (iblk7 V c 2 t) (iblk7 V c 3 t) (iblk7 V c 0 t) (iblk7 V c 1 t) (outsAt7 V c (t.val - 1) (Nat.lt_of_le_of_lt (Nat.sub_le _ _) t.isLt)).2.2) := by
  rw [outsAt7_B V c t h0]
  unfold out7_B_4 out7_B_5 out7_B_6
  rw [View.read_writes_eq_canon _ _ _ fun y => cover7_B_4 (y := y) .., View.read_writes_eq_canon _ _ _ fun y => cover7_B_5 (y := y) ..,
    View.read_writes_eq_canon _ _ _ fun y => cover7_B_6 (y := y) ..]
  unfold kernelRun7_B
  dsimp only
  sl_unfold_words
  simp only [View.canon_cons_unit_zero (S := S5000x128) hz, View.canon_cons_unit_zero (S := S1x128) hz, View.readAt_eq_ld,
    (hs7_0 t).read_unread, (hs7_1 t).read_unread, (hs7_2 t).read_unread, (hs7_3 t).read_unread, (hs7_5 t).read_unread, (hs7_6 t).read_unread,
    View.ld_unit_zero (S := S5000x128) hz, View.ld_unit_zero (S := S5000x1) hz, View.ld_unit_zero (S := S1x128) hz]

theorem rd0 (y : S5000x128.Idx) : iblk7 V c 0 t y = V c (Pipeline.arrRef spec7 0) (ix2 (row N_7 t (y 0)) (y 1)) :=
  congrArg _ (emb_tile t y)
theorem rd1 (y : S5000x128.Idx) : iblk7 V c 1 t y = V c (Pipeline.arrRef spec7 1) (ix2 (row N_7 t (y 0)) (y 1)) :=
  congrArg _ (emb_tile t y)
theorem rd2 (y : S5000x1.Idx) : iblk7 V c 2 t y = V c (Pipeline.arrRef spec7 2) (ix2 (row N_7 t (y 0)) (y 1)) :=
  congrArg _ (emb_col t y)
theorem rd3 (y : S1x128.Idx) : iblk7 V c 3 t y = V c (Pipeline.arrRef spec7 3) y := congrArg _ (emb_row t y)

theorem flushed5 (G : Cert.Spec.S1D.Idx → EReal) (hG : ∀ y, (outsAt7 V c t.val t.isLt).2.1 y = G y) :
    (dat7 V c).flushed 5 t = ((cfg7.win 5).blk t).view.read (Elt Ideal) G := by
  show (cfg7.win 5).cut (grid7.coords t) ((dat7 V c).after 5 t) = _
  rw [after7_5]
  funext y
  show (outsAt7 V c t.val t.isLt).2.1 y = G (((cfg7.win 5).blk t).view.emb y)
  exact (hG y).trans (congrArg G (emb_row t y).symm)

theorem flushed6 (G : Cert.Spec.S1D.Idx → EReal) (hG : ∀ y, (outsAt7 V c t.val t.isLt).2.2 y = G y) :
    (dat7 V c).flushed 6 t = ((cfg7.win 6).blk t).view.read (Elt Ideal) G := by
  show (cfg7.win 6).cut (grid7.coords t) ((dat7 V c).after 6 t) = _
  rw [after7_6]
  funext y
  show (outsAt7 V c t.val t.isLt).2.2 y = G (((cfg7.win 6).blk t).view.emb y)
  exact (hG y).trans (congrArg G (emb_row t y).symm)

-- The outputs: the activation, its column sums, and the column sums of its squares.
theorem finals : (dat7 V c).arrAt 4 cfg7.N = PR7 V c ∧ (dat7 V c).arrAt 5 cfg7.N = Cert.Spec.colsumRow (PR7 V c)
    ∧ (dat7 V c).arrAt 6 cfg7.N = Cert.Spec.colsumsqRow (PR7 V c) := by
  obtain ⟨s4, s⟩ := stat_outs N_7 (outsAt7 V c) (iblk7 V c 2) (iblk7 V c 3) (iblk7 V c 0) (iblk7 V c 1) _ _ _ _
    (rd0 V c) (rd1 V c) (rd2 V c) (rd3 V c) (outsAt_first V c) (outsAt_later V c)
  refine ⟨(dat7 V c).arrAt_eq_of_cover 4 _ (fun t _ => ?_) fun i => (cover_tile i).imp fun t h => ⟨flush7_4 t, h⟩,
    (dat7 V c).arrAt_eq_of_cover 5 _ (fun t ht => flushed5 V c t _ fun y => (s t ((flush7_5 t).mp ht) y).1)
      fun i => (cover_last i).imp fun t h => ⟨(flush7_5 t).mpr h.1, h.2⟩,
    (dat7 V c).arrAt_eq_of_cover 6 _ (fun t ht => flushed6 V c t _ fun y => (s t ((flush7_6 t).mp ht) y).2)
      fun i => (cover_last i).imp fun t h => ⟨(flush7_6 t).mpr h.1, h.2⟩⟩
  show (cfg7.win 4).cut (grid7.coords t) ((dat7 V c).after 4 t) = _
  rw [after7_4]
  exact funext fun y => (s4 t y).trans (congrArg (PR7 V c) (emb_tile t y).symm)

end R7

theorem final7_4 : (Gen.dat7 (F := Ideal) V c).arrAt 4 cfg7.N
    = Cert.Spec.preRow (V c (Pipeline.arrRef spec7 0)) (V c (Pipeline.arrRef spec7 1)) (V c (Pipeline.arrRef spec7 2)) (V c (Pipeline.arrRef spec7 3)) :=
  (R7.finals V c).1

theorem final7_5 : (Gen.dat7 (F := Ideal) V c).arrAt 5 cfg7.N
    = Cert.Spec.colsumRow (Cert.Spec.preRow (V c (Pipeline.arrRef spec7 0)) (V c (Pipeline.arrRef spec7 1)) (V c (Pipeline.arrRef spec7 2)) (V c (Pipeline.arrRef spec7 3))) :=
  (R7.finals V c).2.1

theorem final7_6 : (Gen.dat7 (F := Ideal) V c).arrAt 6 cfg7.N
    = Cert.Spec.colsumsqRow (Cert.Spec.preRow (V c (Pipeline.arrRef spec7 0)) (V c (Pipeline.arrRef spec7 1)) (V c (Pipeline.arrRef spec7 2)) (V c (Pipeline.arrRef spec7 3))) :=
  (R7.finals V c).2.2

end Cert.KernelIdeal.RegVal

end
-- ==== Proof.Reg8a.lean ====
import proofs.«401582_j39573828665766_2_alg».proof.Proof.Gen.KernelIdeal.Frame
import proofs.«401582_j39573828665766_2_alg».proof.Proof.Spec
import Idealize.ShloMosaic.Lib.Pipeline.Value
import Idealize.ShloMosaic.Lib.ValueIdx
import Idealize.ShloMosaic.PureOps.Ideal.Laws

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen

theorem idx8 (j : S512x128.Idx) (k : dot_S5000x512_S5000x128_S512x128_0_0_1_1_n_n.contr.Idx) :
    (dot_S5000x512_S5000x128_S512x128_0_0_1_1_n_n.lhsIdx j k 0 : ℕ) = k ⟨0, by decide⟩ ∧ (dot_S5000x512_S5000x128_S512x128_0_0_1_1_n_n.lhsIdx j k 1 : ℕ) = j 0
      ∧ (dot_S5000x512_S5000x128_S512x128_0_0_1_1_n_n.rhsIdx j k 0 : ℕ) = k ⟨0, by decide⟩ ∧ (dot_S5000x512_S5000x128_S512x128_0_0_1_1_n_n.rhsIdx j k 1 : ℕ) = j 1 := by
  refine ⟨?_, ?_, ?_, ?_⟩ <;> simp [DotDims.lhsIdx, DotDims.rhsIdx, dot_S5000x512_S5000x128_S512x128_0_0_1_1_n_n] <;> rfl

theorem pool_matmul (L : FVec Ideal S5000x512 .bf16) (R : FVec Ideal S5000x128 .bf16) (q : Fin 512) (d : Fin 128) :
    matmul dot_S5000x512_S5000x128_S512x128_0_0_1_1_n_n none L R (constant S512x128 .f32 0x00000000#32) (ix2 q d)
      = ∑ r : Fin 5000, L (ix2 r q) * R (ix2 r d) := by
  simp only [matmul]
  rw [Ideal.matmul_constant_zero_apply,
    ← Equiv.sum_comp (contrEquiv1 dot_S5000x512_S5000x128_S512x128_0_0_1_1_n_n 5000 rfl rfl).symm]
  refine Finset.sum_congr rfl fun r _ => ?_
  have hk : (((contrEquiv1 dot_S5000x512_S5000x128_S512x128_0_0_1_1_n_n 5000 rfl rfl).symm r) ⟨0, by decide⟩ : ℕ) = r.val :=
    contrEquiv1_symm_val _ _ _ _ r
  refine congrArg₂ (· * ·) (congrArg L ?_) (congrArg R ?_)
  · funext a; apply Fin.ext
    match a with
    | ⟨0, _⟩ => exact (idx8 _ _).1.trans hk
    | ⟨1, _⟩ => exact (idx8 _ _).2.1
  · funext a; apply Fin.ext
    match a with
    | ⟨0, _⟩ => exact (idx8 _ _).2.2.1.trans hk
    | ⟨1, _⟩ => exact (idx8 _ _).2.2.2

theorem onehot_word (q : ℕ) (w : BitVec 32) :
    (FloatOps.sitofp (F := Ideal) .f32 ((IntOp.cmpi .eq (BitVec.ofNat 32 q) w).setWidth 32) : EReal)
      = if w = BitVec.ofNat 32 q then 1 else 0 := by
  show ((((IntOp.cmpi .eq (BitVec.ofNat 32 q) w).setWidth 32).toInt : ℝ) : EReal) = _
  have h1 : ((1#1 : BitVec 1).setWidth 32).toInt = 1 := by decide
  have h0 : ((0#1 : BitVec 1).setWidth 32).toInt = 0 := by decide
  by_cases h : w = BitVec.ofNat 32 q
  · have e : IntOp.cmpi .eq (BitVec.ofNat 32 q) w = 1#1 := by subst h; simp [IntOp.cmpi]
    rw [e, if_pos h, h1]; simp
  · have e : IntOp.cmpi .eq (BitVec.ofNat 32 q) w = 0#1 := by
      simp only [IntOp.cmpi]
      rw [show (BitVec.ofNat 32 q == w) = false from by simpa using fun h' => h h'.symm]
      rfl
    rw [e, if_neg h, h0]; simp

theorem col_bcast (b : Vec Ideal S5000x1 .i32) (r : Fin 5000) (q : Fin 512) :
    broadcastTo S5000x512 (shapeCast S5000x1 b Gen.shapeCasts_S5000x1_S5000x1) Gen.broadcasts_S5000x1_S5000x512 (ix2 r q)
      = b (ix2 r 0) := by
  rw [shapeCast_self]
  exact broadcastTo_apply _ _ _ (ix2 r 0) (fun a => by match a with | ⟨0, _⟩ => rfl | ⟨1, _⟩ => rfl)

theorem row_bcast (v : Vec Ideal S1x128 .f32) (r : Fin 5000) (d : Fin 128) :
    broadcastTo S5000x128 v Gen.broadcasts_S1x128_S5000x128 (ix2 r d) = v (ix2 0 d) := by
  exact broadcastTo_apply _ _ _ (ix2 0 d) (fun a => by match a with | ⟨0, _⟩ => rfl | ⟨1, _⟩ => rfl)

theorem pay3_apply (x : Vec Ideal S5000x128 .f32) (g be mu var : Vec Ideal S1x128 .f32) (b : Vec Ideal S5000x1 .i32)
    (q : Fin 512) (d : Fin 128) :
    k8_pay3 x g be mu var b (ix2 q d)
      = ∑ r : Fin 5000, (if b (ix2 r 0) = BitVec.ofNat 32 q.val then (1 : EReal) else 0)
          * max (g (ix2 0 d) * ((x (ix2 r d) - mu (ix2 0 d)) * Ideal.rsqrt (var (ix2 0 d) + Cert.Spec.eps)) + be (ix2 0 d)) 0 := by
  unfold k8_pay3
  refine (pool_matmul _ _ q d).trans (Finset.sum_congr rfl fun r _ => ?_)
  refine congrArg₂ (· * ·) ?_ ?_
  · show FloatOps.sitofp (F := Ideal) .f32 ((IntOp.cmpi .eq (iota .tc S5000x512 32 [1] Gen.iota_S5000x512_d1_w32 (ix2 r q))
        (broadcastTo S5000x512 (shapeCast S5000x1 b Gen.shapeCasts_S5000x1_S5000x1) Gen.broadcasts_S5000x1_S5000x512 (ix2 r q))).setWidth 32) = _
    rw [iota_single_apply, col_bcast]
    exact onehot_word q.val _
  · simp only [truncf_apply, maximumf_apply, addf_apply, mulf_apply, subf_apply, broadcast_apply, row_bcast, shapeCast_self]
    show max (_ * (_ * Ideal.rsqrt (broadcastTo S5000x128 var Gen.broadcasts_S1x128_S5000x128 (ix2 r d) + Cert.Spec.eps)) + _)
      (Ideal.ofBits .f32 0x00000000#32) = _
    rw [row_bcast g, row_bcast mu, row_bcast var, row_bcast be, Ideal.ofBits_zero_f32]

end Cert.KernelIdeal.RegVal

end
-- ==== Proof.Reg8b.lean ====
import proofs.«401582_j39573828665766_2_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen Cert.KernelIdeal.Facts₀

open Idealize.ShloMosaic.Tactic Idealize.SL.Sem

variable {F : FTy → Type} [FloatOps F]

theorem hz : (![0, 0] : Fin 2 → Nat) = fun _ => 0 := funext fun a => by fin_cases a <;> rfl

section
variable (c : Dev nD) (i : grid8.Coords) (a1 : Memref sig .tc .vmem S5000x128 .f32) (h1 : a1.IsWhole)
  (a2 : Memref sig .tc .vmem S1x128 .f32) (h2 : a2.IsWhole) (a3 : Memref sig .tc .vmem S1x128 .f32) (h3 : a3.IsWhole)
  (a4 : Memref sig .tc .vmem S1x128 .f32) (h4 : a4.IsWhole) (a5 : Memref sig .tc .vmem S1x128 .f32) (h5 : a5.IsWhole)
  (a6 : Memref sig .tc .vmem S5000x1 .i32) (h6 : a6.IsWhole) (a7 : Memref sig .tc .vmem S512x128 .f32) (h7 : a7.IsWhole)
  (x0 : Vec F S5000x128 .f32) (x1 x2 x3 x4 : Vec F S1x128 .f32) (x5 : Vec F S5000x1 .i32)

theorem out_B (hc : ¬cond8_0 i) (xo : Vec F S512x128 .f32) :
    out8_B_6 c i a1 h1 a2 h2 a3 h3 a4 h4 a5 h5 a6 h6 a7 h7 hc x0 x1 x2 x3 x4 x5 xo
      = k8_pay1 (k8_pay3 x0 x1 x2 x3 x4 x5) xo := by
  unfold out8_B_6
  rw [View.read_writes_eq_canon _ _ _ (cover8_B_6 c i a1 h1 a2 h2 a3 h3 a4 h4 a5 h5 a6 h6 a7 h7 hc x0 x1 x2 x3 x4 x5 xo)]
  unfold kernelRun8_B
  dsimp only
  sl_unfold_words
  rw [View.canon_unit_zero (S := S512x128) hz]
  simp only [View.readAt_eq_ld, h1.read_unread, h2.read_unread, h3.read_unread, h4.read_unread, h5.read_unread, h6.read_unread, h7.read_unread,
    View.ld_unit_zero (S := S5000x128) hz, View.ld_unit_zero (S := S1x128) hz, View.ld_unit_zero (S := S5000x1) hz, View.ld_unit_zero (S := S512x128) hz]

theorem out_A (hc : cond8_0 i) :
    out8_A_6 c i a1 h1 a2 h2 a3 h3 a4 h4 a5 h5 a6 h6 a7 h7 hc x0 x1 x2 x3 x4 x5
      = k8_pay1 (k8_pay3 x0 x1 x2 x3 x4 x5) (k8_pay2 (F := F)) := by
  unfold out8_A_6
  rw [View.read_writes_eq_canon _ _ _ (cover8_A_6 c i a1 h1 a2 h2 a3 h3 a4 h4 a5 h5 a6 h6 a7 h7 hc x0 x1 x2 x3 x4 x5)]
  unfold kernelRun8_A
  dsimp only
  sl_unfold_words
  rw [View.canon_cons_unit_zero (S := S512x128) hz, View.readCov_unit_zero (S := S512x128) _ hz]
  simp only [View.readAt_eq_ld, h1.read_unread, h2.read_unread, h3.read_unread, h4.read_unread, h5.read_unread, h6.read_unread,
    View.ld_unit_zero (S := S5000x128) hz, View.ld_unit_zero (S := S1x128) hz, View.ld_unit_zero (S := S5000x1) hz, View.ld_unit_zero (S := S512x128) hz]

end

theorem pay1_apply (v39 : FVec Ideal S512x128 .f32) (v40 : Vec Ideal S512x128 .f32) (j : S512x128.Idx) :
    k8_pay1 v39 v40 j = v40 j + v39 j := by
  unfold k8_pay1
  rw [shapeCast_self]
  rfl

theorem pay2_apply (j : S512x128.Idx) : k8_pay2 (F := Ideal) j = 0 := by
  unfold k8_pay2
  exact Ideal.ofBits_zero_f32

end Cert.KernelIdeal.RegVal

end
-- ==== Proof.Reg8c.lean ====
import proofs.«401582_j39573828665766_2_alg».proof.Proof.Gen.KernelIdeal.Frame
import proofs.«401582_j39573828665766_2_alg».proof.Proof.Spec
import proofs.«401582_j39573828665766_2_alg».proof.Proof.LibTiles
import proofs.«401582_j39573828665766_2_alg».proof.Proof.Reg8a
import proofs.«401582_j39573828665766_2_alg».proof.Proof.Reg8b

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen Cert.KernelIdeal.Facts₀

variable (V : (c : Dev nD) → (b : Ref sig .tc) → Buf (Elt Ideal) ((c : Thread nD τ).loc b))

abbrev harr (c : Dev nD) : Vec Ideal S50000x128 .f32 := V c (Pipeline.arrRef spec8 0)
abbrev garr (c : Dev nD) : Vec Ideal S1x128 .f32 := V c (Pipeline.arrRef spec8 1)
abbrev bearr (c : Dev nD) : Vec Ideal S1x128 .f32 := V c (Pipeline.arrRef spec8 2)
abbrev muarr (c : Dev nD) : Vec Ideal S1x128 .f32 := V c (Pipeline.arrRef spec8 3)
abbrev vararr (c : Dev nD) : Vec Ideal S1x128 .f32 := V c (Pipeline.arrRef spec8 4)
abbrev idarr (c : Dev nD) : Vec Ideal S50000x1 .i32 := V c (Pipeline.arrRef spec8 5)

abbrev hblk (c : Dev nD) (t : Fin cfg8.N) : Vec Ideal S5000x128 .f32 := iblk8 V c 0 t
abbrev gblk (c : Dev nD) (t : Fin cfg8.N) : Vec Ideal S1x128 .f32 := iblk8 V c 1 t
abbrev beblk (c : Dev nD) (t : Fin cfg8.N) : Vec Ideal S1x128 .f32 := iblk8 V c 2 t
abbrev mublk (c : Dev nD) (t : Fin cfg8.N) : Vec Ideal S1x128 .f32 := iblk8 V c 3 t
abbrev varblk (c : Dev nD) (t : Fin cfg8.N) : Vec Ideal S1x128 .f32 := iblk8 V c 4 t
abbrev idblk (c : Dev nD) (t : Fin cfg8.N) : Vec Ideal S5000x1 .i32 := iblk8 V c 5 t

theorem idx_facts : ∀ t : Fin cfg8.N,
    win8_0.index t (0 : Fin 2) = t.val ∧ win8_0.index t (1 : Fin 2) = 0
    ∧ win8_5.index t (0 : Fin 2) = t.val ∧ win8_5.index t (1 : Fin 2) = 0
    ∧ (∀ a, win8_1.index t a = 0) ∧ (∀ a, win8_2.index t a = 0) ∧ (∀ a, win8_3.index t a = 0) ∧ (∀ a, win8_4.index t a = 0) :=
  (by decide +kernel : ∀ t : Fin grid8.N, _)

theorem tile_row_lt (t : Fin cfg8.N) (r : Fin 5000) : t.val * 5000 + r.val < 50000 := by
  have ht : t.val < 10 := lt_of_lt_of_eq t.isLt (show cfg8.N = 10 from N_8)
  have := r.isLt; omega

theorem hblk_apply (c : Dev nD) (t : Fin cfg8.N) (r : Fin 5000) (d : Fin 128) :
    hblk V c t (ix2 r d) = harr V c (ix2 ⟨t.val * 5000 + r.val, tile_row_lt t r⟩ d) := by
  obtain ⟨e0, e1, -⟩ := idx_facts t
  exact congrArg (V c (Pipeline.arrRef spec8 0)) (funext fun a => Fin.ext (match a with
    | ⟨0, _⟩ => (win8_0.rect_emb_val t _ _).trans (congrArg (· * 5000 + r.val) e0)
    | ⟨1, _⟩ => win8_0.rect_emb_val_of_index_zero t _ e1 _))

theorem idblk_apply (c : Dev nD) (t : Fin cfg8.N) (r : Fin 5000) :
    idblk V c t (ix2 r 0) = idarr V c (ix2 ⟨t.val * 5000 + r.val, tile_row_lt t r⟩ 0) := by
  obtain ⟨-, -, e0, e1, -⟩ := idx_facts t
  exact congrArg (V c (Pipeline.arrRef spec8 5)) (funext fun a => Fin.ext (match a with
    | ⟨0, _⟩ => (win8_5.rect_emb_val t _ _).trans (congrArg (· * 5000 + r.val) e0)
    | ⟨1, _⟩ => win8_5.rect_emb_val_of_index_zero t _ e1 _))

theorem gblk_apply (c : Dev nD) (t : Fin cfg8.N) (d : Fin 128) : gblk V c t (ix2 0 d) = garr V c (ix2 0 d) :=
  congrArg (V c (Pipeline.arrRef spec8 1)) (funext fun a => Fin.ext (win8_1.rect_emb_val_of_index_zero t a ((idx_facts t).2.2.2.2.1 a) _))

theorem beblk_apply (c : Dev nD) (t : Fin cfg8.N) (d : Fin 128) : beblk V c t (ix2 0 d) = bearr V c (ix2 0 d) :=
  congrArg (V c (Pipeline.arrRef spec8 2)) (funext fun a => Fin.ext (win8_2.rect_emb_val_of_index_zero t a ((idx_facts t).2.2.2.2.2.1 a) _))

theorem mublk_apply (c : Dev nD) (t : Fin cfg8.N) (d : Fin 128) : mublk V c t (ix2 0 d) = muarr V c (ix2 0 d) :=
  congrArg (V c (Pipeline.arrRef spec8 3)) (funext fun a => Fin.ext (win8_3.rect_emb_val_of_index_zero t a ((idx_facts t).2.2.2.2.2.2.1 a) _))

theorem varblk_apply (c : Dev nD) (t : Fin cfg8.N) (d : Fin 128) : varblk V c t (ix2 0 d) = vararr V c (ix2 0 d) :=
  congrArg (V c (Pipeline.arrRef spec8 4)) (funext fun a => Fin.ext (win8_4.rect_emb_val_of_index_zero t a ((idx_facts t).2.2.2.2.2.2.2 a) _))

/-- The pooled activation of the whole arrays. -/
abbrev pooled (c : Dev nD) : Vec Ideal S512x128 .f32 :=
  Cert.Spec.poolCol (Cert.Spec.actRow (harr V c) (garr V c) (bearr V c) (muarr V c) (vararr V c)) (idarr V c)

def nodeTerm (c : Dev nD) (q : Fin 512) (d : Fin 128) (n : Fin 50000) : EReal :=
  (if idarr V c (ix2 n 0) = BitVec.ofNat 32 q.val then (1 : EReal) else 0)
    * Cert.Spec.actRow (harr V c) (garr V c) (bearr V c) (muarr V c) (vararr V c) (ix2 n d)

theorem poolCol_apply (c : Dev nD) (q : Fin 512) (d : Fin 128) :
    pooled V c (ix2 q d) = ∑ n : Fin 50000, nodeTerm V c q d n := rfl

def tileSum (c : Dev nD) (q : Fin 512) (d : Fin 128) (j : ℕ) : EReal :=
  if h : j < 10 then ∑ r : Fin 5000, nodeTerm V c q d ⟨j * 5000 + r.val, Cert.LibTiles.tile_lt (⟨j, h⟩ : Fin 10) r⟩ else 0

theorem pay3_tile (c : Dev nD) (t : Fin cfg8.N) (q : Fin 512) (d : Fin 128) :
    k8_pay3 (hblk V c t) (gblk V c t) (beblk V c t) (mublk V c t) (varblk V c t) (idblk V c t) (ix2 q d)
      = tileSum V c q d t.val := by
  have ht : t.val < 10 := lt_of_lt_of_eq t.isLt (show cfg8.N = 10 from N_8)
  rw [pay3_apply, tileSum, dif_pos ht]
  refine Finset.sum_congr rfl fun r _ => ?_
  rw [hblk_apply, idblk_apply, gblk_apply, beblk_apply, mublk_apply, varblk_apply]
  rfl

theorem tiles_sum (c : Dev nD) (q : Fin 512) (d : Fin 128) :
    ∑ j ∈ Finset.range 10, tileSum V c q d j = ∑ n : Fin 50000, nodeTerm V c q d n := by
  rw [Finset.sum_range]
  refine Eq.trans ?_ (Cert.LibTiles.tile_sum 10 5000 (nodeTerm V c q d)).symm
  refine Finset.sum_congr rfl fun j _ => ?_
  rw [tileSum, dif_pos j.isLt]

theorem outsAt_eq (c : Dev nD) : ∀ (n : ℕ) (hn : n < cfg8.N) (q : Fin 512) (d : Fin 128),
    outsAt8 V c n hn (ix2 q d) = ∑ j ∈ Finset.range (n + 1), tileSum V c q d j
  | 0, hn, q, d => by
    refine (congrFun (outsAt8_A V c ⟨0, hn⟩ rfl) (ix2 q d)).trans ?_
    rw [out_A, pay1_apply, pay2_apply, zero_add, pay3_tile, Finset.sum_range_succ, Finset.sum_range_zero, zero_add]
  | n + 1, hn, q, d => by
    have hN : cfg8.N = 10 := N_8
    have hB : ¬(⟨n + 1, hn⟩ : Fin cfg8.N).val % 10 = 0 := by dsimp only; omega
    refine (congrFun (outsAt8_B V c ⟨n + 1, hn⟩ hB) (ix2 q d)).trans ?_
    rw [out_B, pay1_apply, pay3_tile, Finset.sum_range_succ]
    exact congrArg (· + _) (outsAt_eq c n (Nat.lt_of_succ_lt hn) q d)

theorem outsAt_last (c : Dev nD) (hn : 9 < cfg8.N) (q : Fin 512) (d : Fin 128) :
    outsAt8 V c 9 hn (ix2 q d) = (pooled V c) (ix2 q d) := by
  rw [outsAt_eq, poolCol_apply]
  exact tiles_sum V c q d

theorem flushed_eq (c : Dev nD) (t : Fin cfg8.N) (hf : (cfg8.win 6).flush t = true) :
    (dat8 V c).flushed 6 t = ((cfg8.win 6).blk t).view.read (Elt Ideal) (pooled V c) := by
  have hN : cfg8.N = 10 := N_8
  have h9 : t.val = 9 := by have := (flush8_6 t).mp hf; have := t.isLt; omega
  obtain rfl : t = t8_9 := Fin.ext h9
  show (cfg8.win 6).cut (grid8.coords t8_9) ((dat8 V c).after 6 t8_9) = _
  rw [after8_6]
  have hz' : (fun a => win8_6.index t8_9 a * main_call0_v165.ty.shape.size a) = fun _ => 0 :=
    funext fun a => by fin_cases a <;> decide +kernel
  refine Eq.trans ?_ (Memref.read_access_unit_zero (Elt Ideal) main_call0_v165 hz' (fun a => by rw [congrFun hz' a]; simp)
    (pooled V c)).symm
  funext y
  obtain ⟨q, d, rfl⟩ : ∃ (q : Fin 512) (d : Fin 128), y = ix2 q d := ⟨y 0, y 1, eq_ix2 y⟩
  exact outsAt_last V c _ q d

theorem pool_final (c : Dev nD) : (dat8 V c).arrAt 6 cfg8.N = (pooled V c) :=
  (dat8 V c).arrAt_eq_of_cover 6 (pooled V c) (flushed_eq V c) fun i =>
    ⟨t8_9, (flush8_6 t8_9).mpr rfl, by
      show i ∈ ((View.whole main_call0_v165).slice (win8_6.rect t8_9)).set
      rw [View.set_slice_whole, Rect.mem_set_unit]
      intro a
      have h0 : (i 0 : Nat) < 512 := (i 0).isLt
      have h1 : (i 1 : Nat) < 128 := (i 1).isLt
      match a with
      | ⟨0, _⟩ =>
        show win8_6.index t8_9 0 * win8_6.size 0 ≤ (i 0 : Nat) ∧ (i 0 : Nat) < win8_6.index t8_9 0 * win8_6.size 0 + win8_6.xsize (grid8.coords t8_9) 0
        rw [show win8_6.index t8_9 0 * win8_6.size 0 = 0 from by decide +kernel, show win8_6.xsize (grid8.coords t8_9) 0 = 512 from by decide +kernel]; omega
      | ⟨1, _⟩ =>
        show win8_6.index t8_9 1 * win8_6.size 1 ≤ (i 1 : Nat) ∧ (i 1 : Nat) < win8_6.index t8_9 1 * win8_6.size 1 + win8_6.xsize (grid8.coords t8_9) 1
        rw [show win8_6.index t8_9 1 * win8_6.size 1 = 0 from by decide +kernel, show win8_6.xsize (grid8.coords t8_9) 1 = 128 from by decide +kernel]; omega⟩

end Cert.KernelIdeal.RegVal

end
-- ==== Proof.Reg8.lean ====
import proofs.«401582_j39573828665766_2_alg».proof.Proof.Reg8c

noncomputable section

namespace Cert.KernelIdeal.RegVal

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem final8 (c : Dev nD) : (Gen.dat8 (F := Ideal) V c).arrAt 6 cfg8.N
    = Cert.Spec.poolCol (Cert.Spec.actRow (V c (Pipeline.arrRef spec8 0)) (V c (Pipeline.arrRef spec8 1))
        (V c (Pipeline.arrRef spec8 2)) (V c (Pipeline.arrRef spec8 3)) (V c (Pipeline.arrRef spec8 4)))
        (V c (Pipeline.arrRef spec8 5)) :=
  pool_final V c

end Cert.KernelIdeal.RegVal

end
-- ==== Proof.KVal2.lean ====
import proofs.«401582_j39573828665766_2_alg».proof.Proof.Gen.KernelIdeal.Frame
import proofs.«401582_j39573828665766_2_alg».proof.Proof.Spec
import proofs.«401582_j39573828665766_2_alg».proof.Proof.KCtx
import proofs.«401582_j39573828665766_2_alg».proof.Proof.KHost
import proofs.«401582_j39573828665766_2_alg».proof.Proof.Reg5
import proofs.«401582_j39573828665766_2_alg».proof.Proof.Reg6
import proofs.«401582_j39573828665766_2_alg».proof.Proof.Reg7
import proofs.«401582_j39573828665766_2_alg».proof.Proof.Reg8

set_option maxRecDepth 16384

noncomputable section

namespace Cert.KernelIdeal.KVal2

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

set_option quotPrecheck false in
local notation:max "♯" b:max => (Proc.devRef (τ := τ) .tc b : DevRef τ sig)
set_option quotPrecheck false in
local notation:max "𝐚" b:max => m ((c : Thread nD τ).loc b)

local macro "host_keep" : tactic => `(tactic|
  exact StableHlo.after_of_forall_not_mem _ _ (List.forall_iff_forall_mem.mp (by
    simp only [hostOps5, hostOps6, hostOps7, hostOps8, hostOps9,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem c11_v96 : W11 m ρ c (♯main_call0_v96) = W10 m ρ c (♯main_call0_v96) := by host_keep

def kept : List (Ref sig .tc) :=
  [main_call0_v1, main_call0_v3, main_call0_v27, main_call0_v12, main_arg2, main_arg7, main_arg8, main_arg9,
    main_arg10, main_arg11, main_arg12]

local macro "kept_cases" hb:ident : tactic => `(tactic| (
  simp only [kept, List.mem_cons, List.not_mem_nil, or_false] at $hb:ident
  rcases $hb:ident with h | h | h | h | h | h | h | h | h | h | h <;> subst h))

theorem keep11 : ∀ b ∈ kept, W11 m ρ c (♯b) = W10 m ρ c (♯b) := by
  intro b hb
  kept_cases hb <;> host_keep

theorem keep12 : ∀ b ∈ kept, W12 m ρ c (♯b) = W10 m ρ c (♯b) := by
  intro b hb
  refine Eq.trans ?_ (keep11 m ρ c b hb)
  kept_cases hb
  all_goals first
    | exact W12_of_ne m ρ c _ (by decide)
    | exact (W12_arr m ρ c 2).trans (((dat5 (V11 m ρ) c).arrAt_in 2 rfl _).trans (A_eq5 (V11 m ρ) c 2))

theorem keep13 : ∀ b ∈ kept, W13 m ρ c (♯b) = W10 m ρ c (♯b) := by
  intro b hb
  refine Eq.trans ?_ (keep12 m ρ c b hb)
  kept_cases hb <;> host_keep

theorem keep14 : ∀ b ∈ kept, W14 m ρ c (♯b) = W10 m ρ c (♯b) := by
  intro b hb
  refine Eq.trans ?_ (keep13 m ρ c b hb)
  kept_cases hb <;> exact W14_of_ne m ρ c _ (by decide)

theorem keep15 : ∀ b ∈ kept, W15 m ρ c (♯b) = W10 m ρ c (♯b) := by
  intro b hb
  refine Eq.trans ?_ (keep14 m ρ c b hb)
  kept_cases hb <;> host_keep

theorem keep16 : ∀ b ∈ kept, W16 m ρ c (♯b) = W10 m ρ c (♯b) := by
  intro b hb
  refine Eq.trans ?_ (keep15 m ρ c b hb)
  kept_cases hb
  all_goals first
    | exact W16_of_ne m ρ c _ (by decide)
    | exact (W16_arr m ρ c 2).trans (((dat7 (V15 m ρ) c).arrAt_in 2 rfl _).trans (A_eq7 (V15 m ρ) c 2))

theorem keep17 : ∀ b ∈ kept, W17 m ρ c (♯b) = W10 m ρ c (♯b) := by
  intro b hb
  refine Eq.trans ?_ (keep16 m ρ c b hb)
  kept_cases hb <;> host_keep

theorem keep18 : ∀ b ∈ kept, W18 m ρ c (♯b) = W10 m ρ c (♯b) := by
  intro b hb
  refine Eq.trans ?_ (keep17 m ρ c b hb)
  kept_cases hb <;> exact W18_of_ne m ρ c _ (by decide)

section Values
variable (W : Valuation τ sig (Elt Ideal))

def P5 : Cert.Spec.SND.Idx → EReal :=
  Cert.Spec.preRow (KCtx.aggOf (W (♯main_call0_v1)) (W (♯main_call0_v3)) (W (♯main_call0_v27)) (W (♯main_call0_v96)))
    (W (♯main_call0_v96)) (W (♯main_call0_v12)) (KCtx.bRow (W (♯main_call0_v91)))

def H6 : Cert.Spec.SND.Idx → EReal :=
  Cert.Spec.mm
    (Cert.Spec.actRow (P5 W) (KCtx.bRow (KCtx.vSlice 1 (W (♯main_arg9)))) (KCtx.bRow (KCtx.vSlice 1 (W (♯main_arg10))))
      (KCtx.bRow (KCtx.meanOf (Cert.Spec.colsumRow (P5 W))))
      (KCtx.bRow (KCtx.varOf (Cert.Spec.colsumRow (P5 W)) (Cert.Spec.colsumsqRow (P5 W)))))
    (KCtx.wSlice 2 (W (♯main_arg7)))

def P7 : Cert.Spec.SND.Idx → EReal :=
  Cert.Spec.preRow (KCtx.aggOf (W (♯main_call0_v1)) (W (♯main_call0_v3)) (W (♯main_call0_v27)) (H6 W))
    (H6 W) (W (♯main_call0_v12)) (KCtx.bRow (KCtx.vSlice 2 (W (♯main_arg8))))

def Q8 : Cert.Spec.SGD.Idx → EReal :=
  Cert.Spec.poolCol
    (Cert.Spec.actRow (P7 W) (KCtx.bRow (KCtx.vSlice 2 (W (♯main_arg9)))) (KCtx.bRow (KCtx.vSlice 2 (W (♯main_arg10))))
      (KCtx.bRow (KCtx.meanOf (Cert.Spec.colsumRow (P7 W))))
      (KCtx.bRow (KCtx.varOf (Cert.Spec.colsumRow (P7 W)) (Cert.Spec.colsumsqRow (P7 W)))))
    (KCtx.batchCol (W (♯main_arg2)))

end Values

theorem PR5_eq : RegVal.R5.PR5 (V11 m ρ) c = P5 (W10 m ρ c) := by
  show Cert.Spec.preRow (W11 m ρ c (♯main_call0_v109)) (W11 m ρ c (♯main_call0_v96)) (W11 m ρ c (♯main_call0_v12))
      (W11 m ρ c (♯main_call0_v110)) = _
  rw [show W11 m ρ c (♯main_call0_v109) = _ from KHost.h5_v109 _, show W11 m ρ c (♯main_call0_v110) = _ from KHost.h5_v110 _, c11_v96, keep11 m ρ c main_call0_v12 (by decide)]
  rfl

theorem W12_v111_0 : W12 m ρ c (♯main_call0_v111_0) = P5 (W10 m ρ c) :=
  (W12_arr m ρ c 4).trans ((RegVal.final5_4 (V11 m ρ) c).trans (PR5_eq m ρ c))
theorem W12_v111_1 : W12 m ρ c (♯main_call0_v111_1) = Cert.Spec.colsumRow (P5 (W10 m ρ c)) :=
  (W12_arr m ρ c 5).trans ((RegVal.final5_5 (V11 m ρ) c).trans (congrArg Cert.Spec.colsumRow (PR5_eq m ρ c)))
theorem W12_v111_2 : W12 m ρ c (♯main_call0_v111_2) = Cert.Spec.colsumsqRow (P5 (W10 m ρ c)) :=
  (W12_arr m ρ c 6).trans ((RegVal.final5_6 (V11 m ρ) c).trans (congrArg Cert.Spec.colsumsqRow (PR5_eq m ρ c)))

theorem k13_v111_0 : W13 m ρ c (♯main_call0_v111_0) = W12 m ρ c (♯main_call0_v111_0) := by host_keep

theorem W14_v132 : W14 m ρ c (♯main_call0_v132) = H6 (W10 m ρ c) := by
  refine (W14_arr m ρ c 6).trans ((RegVal.final6 (V13 m ρ) c).trans ?_)
  show Cert.Spec.mm (Cert.Spec.actRow (W13 m ρ c (♯main_call0_v111_0)) (W13 m ρ c (♯main_call0_v128))
      (W13 m ρ c (♯main_call0_v129)) (W13 m ρ c (♯main_call0_v130)) (W13 m ρ c (♯main_call0_v131)))
      (W13 m ρ c (♯main_call0_v125)) = _
  rw [show W13 m ρ c (♯main_call0_v128) = _ from KHost.h6_v128 _, show W13 m ρ c (♯main_call0_v129) = _ from KHost.h6_v129 _, show W13 m ρ c (♯main_call0_v130) = _ from KHost.h6_v130 _, show W13 m ρ c (♯main_call0_v131) = _ from KHost.h6_v131 _, show W13 m ρ c (♯main_call0_v125) = _ from KHost.h6_v125 _, k13_v111_0, W12_v111_0, W12_v111_1, W12_v111_2,
    keep12 m ρ c main_arg9 (by decide), keep12 m ρ c main_arg10 (by decide), keep12 m ρ c main_arg7 (by decide)]
  rfl

theorem k14_v127 : W14 m ρ c (♯main_call0_v127) = W13 m ρ c (♯main_call0_v127) :=
  W14_of_ne m ρ c main_call0_v127 (by decide)
theorem k15_v132 : W15 m ρ c (♯main_call0_v132) = W14 m ρ c (♯main_call0_v132) := by host_keep

theorem PR7_eq : RegVal.R7.PR7 (V15 m ρ) c = P7 (W10 m ρ c) := by
  show Cert.Spec.preRow (W15 m ρ c (♯main_call0_v145)) (W15 m ρ c (♯main_call0_v132)) (W15 m ρ c (♯main_call0_v12))
      (W15 m ρ c (♯main_call0_v146)) = _
  rw [show W15 m ρ c (♯main_call0_v145) = _ from KHost.h7_v145 _, show W15 m ρ c (♯main_call0_v146) = _ from KHost.h7_v146 _, k15_v132, W14_v132, keep15 m ρ c main_call0_v12 (by decide), keep14 m ρ c main_call0_v1 (by decide), keep14 m ρ c main_call0_v3 (by decide),
    keep14 m ρ c main_call0_v27 (by decide), k14_v127, show W13 m ρ c (♯main_call0_v127) = _ from KHost.h6_v127 _, keep12 m ρ c main_arg8 (by decide)]
  rfl

theorem W16_v147_0 : W16 m ρ c (♯main_call0_v147_0) = P7 (W10 m ρ c) :=
  (W16_arr m ρ c 4).trans ((RegVal.final7_4 (V15 m ρ) c).trans (PR7_eq m ρ c))
theorem W16_v147_1 : W16 m ρ c (♯main_call0_v147_1) = Cert.Spec.colsumRow (P7 (W10 m ρ c)) :=
  (W16_arr m ρ c 5).trans ((RegVal.final7_5 (V15 m ρ) c).trans (congrArg Cert.Spec.colsumRow (PR7_eq m ρ c)))
theorem W16_v147_2 : W16 m ρ c (♯main_call0_v147_2) = Cert.Spec.colsumsqRow (P7 (W10 m ρ c)) :=
  (W16_arr m ρ c 6).trans ((RegVal.final7_6 (V15 m ρ) c).trans (congrArg Cert.Spec.colsumsqRow (PR7_eq m ρ c)))

theorem k17_v147_0 : W17 m ρ c (♯main_call0_v147_0) = W16 m ρ c (♯main_call0_v147_0) := by host_keep

theorem W18_v165 : W18 m ρ c (♯main_call0_v165) = Q8 (W10 m ρ c) := by
  refine (W18_arr m ρ c 6).trans ((RegVal.final8 (V17 m ρ) c).trans ?_)
  show Cert.Spec.poolCol (Cert.Spec.actRow (W17 m ρ c (♯main_call0_v147_0)) (W17 m ρ c (♯main_call0_v161))
      (W17 m ρ c (♯main_call0_v162)) (W17 m ρ c (♯main_call0_v163)) (W17 m ρ c (♯main_call0_v164)))
      (W17 m ρ c (♯main_call0_v160)) = _
  rw [show W17 m ρ c (♯main_call0_v161) = _ from KHost.h8_v161 _, show W17 m ρ c (♯main_call0_v162) = _ from KHost.h8_v162 _, show W17 m ρ c (♯main_call0_v163) = _ from KHost.h8_v163 _, show W17 m ρ c (♯main_call0_v164) = _ from KHost.h8_v164 _, show W17 m ρ c (♯main_call0_v160) = _ from KHost.h8_v160 _, k17_v147_0, W16_v147_0, W16_v147_1, W16_v147_2,
    keep16 m ρ c main_arg9 (by decide), keep16 m ρ c main_arg10 (by decide), keep16 m ρ c main_arg2 (by decide)]
  rfl

theorem W19_v0 : W19 m ρ c (♯main_v0)
    = KCtx.tail (W10 m ρ c (♯main_arg2)) (W10 m ρ c (♯main_arg11)) (W10 m ρ c (♯main_arg12)) (Q8 (W10 m ρ c)) := by
  rw [show W19 m ρ c (♯main_v0) = _ from KHost.h9_v0 _, keep18 m ρ c main_arg2 (by decide), keep18 m ρ c main_arg11 (by decide), keep18 m ρ c main_arg12 (by decide), W18_v165]

theorem pre_of (e : IVec S2x800000 32) (h : Cert.Spec.SND.Idx → EReal) (b : Cert.Spec.SD.Idx → EReal) :
    Cert.Spec.preRow (KCtx.aggOf (KCtx.src e) (KCtx.dst e) (KCtx.norm e) h) h (KCtx.d2col e) (KCtx.bRow b)
      = Cert.Spec.pre ((KCtx.ctx e).agg h) h (KCtx.ctx e).dinv b := by
  rw [KPat.d2col_eq, KPat.bRow_eq]
  exact Cert.Spec.preRow_colOf _ _ _ _

theorem act_of (P : Cert.Spec.SND.Idx → EReal) (g be : Cert.Spec.SD.Idx → EReal) :
    Cert.Spec.actRow P (KCtx.bRow g) (KCtx.bRow be) (KCtx.bRow (KCtx.meanOf (Cert.Spec.colsumRow P)))
        (KCtx.bRow (KCtx.varOf (Cert.Spec.colsumRow P) (Cert.Spec.colsumsqRow P)))
      = Cert.Spec.bnK P g be := by
  rw [KPat.bRow_meanOf, KPat.bRow_varOf, KPat.bRow_eq, KPat.bRow_eq]
  exact Cert.Spec.actRow_rowOf _ _ _ _ _

abbrev P3 (H : Cert.Spec.SND.Idx → EReal) : Cert.Spec.SND.Idx → EReal :=
  Cert.Spec.pre ((KCtx.ctx (𝐚 main_arg1)).agg H) H (KCtx.ctx (𝐚 main_arg1)).dinv (Cert.Spec.sl2 (𝐚 main_arg8) 1)

abbrev A3 (H : Cert.Spec.SND.Idx → EReal) : Cert.Spec.SND.Idx → EReal :=
  Cert.Spec.bnK (P3 m c H) (Cert.Spec.sl2 (𝐚 main_arg9) 1) (Cert.Spec.sl2 (𝐚 main_arg10) 1)

abbrev P4 (H : Cert.Spec.SND.Idx → EReal) : Cert.Spec.SND.Idx → EReal :=
  Cert.Spec.layer (KCtx.ctx (𝐚 main_arg1)) (A3 m c H) (Cert.Spec.sl3 (𝐚 main_arg7) 2) (Cert.Spec.sl2 (𝐚 main_arg8) 2)

theorem result_of_W10 (H : Cert.Spec.SND.Idx → EReal)
    (h96 : W10 m ρ c (♯main_call0_v96) = H)
    (h91 : W10 m ρ c (♯main_call0_v91) = Cert.Spec.sl2 (𝐚 main_arg8) 1)
    (hv1 : W10 m ρ c (♯main_call0_v1) = KCtx.src (𝐚 main_arg1))
    (hv3 : W10 m ρ c (♯main_call0_v3) = KCtx.dst (𝐚 main_arg1))
    (hv27 : W10 m ρ c (♯main_call0_v27) = KCtx.norm (𝐚 main_arg1))
    (hv12 : W10 m ρ c (♯main_call0_v12) = KCtx.d2col (𝐚 main_arg1))
    (h2 : W10 m ρ c (♯main_arg2) = 𝐚 main_arg2)
    (h7 : W10 m ρ c (♯main_arg7) = 𝐚 main_arg7)
    (h8 : W10 m ρ c (♯main_arg8) = 𝐚 main_arg8)
    (h9 : W10 m ρ c (♯main_arg9) = 𝐚 main_arg9)
    (h10 : W10 m ρ c (♯main_arg10) = 𝐚 main_arg10)
    (h11 : W10 m ρ c (♯main_arg11) = 𝐚 main_arg11)
    (h12 : W10 m ρ c (♯main_arg12) = 𝐚 main_arg12) :
    W19 m ρ c (♯main_v0)
      = KCtx.tail (𝐚 main_arg2) (𝐚 main_arg11) (𝐚 main_arg12)
          (Cert.Spec.poolCol (Cert.Spec.bnK (P4 m c H) (Cert.Spec.sl2 (𝐚 main_arg9) 2) (Cert.Spec.sl2 (𝐚 main_arg10) 2))
            (Cert.Spec.colOf (𝐚 main_arg2))) := by
  have e5 : P5 (W10 m ρ c) = P3 m c H := by
    unfold P5
    rw [h96, h91, hv1, hv3, hv27, hv12]
    exact pre_of _ _ _
  have e6 : H6 (W10 m ρ c) = Cert.Spec.mm (A3 m c H) (Cert.Spec.sl3 (𝐚 main_arg7) 2) := by
    unfold H6
    rw [e5, h9, h10, h7, KPat.vSlice_eq, KPat.vSlice_eq, KPat.wSlice_eq, act_of]
  have e7 : P7 (W10 m ρ c) = P4 m c H := by
    unfold P7
    rw [e6, hv1, hv3, hv27, hv12, h8, KPat.vSlice_eq]
    exact pre_of _ _ _
  have e8 : Q8 (W10 m ρ c)
      = Cert.Spec.poolCol (Cert.Spec.bnK (P4 m c H) (Cert.Spec.sl2 (𝐚 main_arg9) 2) (Cert.Spec.sl2 (𝐚 main_arg10) 2))
          (Cert.Spec.colOf (𝐚 main_arg2)) := by
    unfold Q8
    rw [e7, h9, h10, h2, KPat.vSlice_eq, KPat.vSlice_eq, KPat.batchCol_eq, act_of]
  rw [W19_v0, h2, h11, h12, e8]

end Cert.KernelIdeal.KVal2

end
-- ==== Proof.KVal.lean ====
import proofs.«401582_j39573828665766_2_alg».proof.Proof.KVal1
import proofs.«401582_j39573828665766_2_alg».proof.Proof.KVal2

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

set_option quotPrecheck false in
local notation:max "♯" b:max => (Proc.devRef (τ := τ) .tc b : DevRef τ sig)
set_option quotPrecheck false in
local notation:max "𝐚" b:max => m ((c : Thread nD τ).loc b)

theorem result : Gen.W19 (F := Ideal) m ρ c (♯main_v0)
    = KCtx.tail (𝐚 main_arg2) (𝐚 main_arg11) (𝐚 main_arg12)
        (Cert.Spec.poolCol
          (Cert.Spec.netK (KCtx.ctx (𝐚 main_arg1)) (𝐚 main_arg0) (𝐚 main_arg3) (𝐚 main_arg4) (𝐚 main_arg5) (𝐚 main_arg6)
            (𝐚 main_arg7) (𝐚 main_arg8) (𝐚 main_arg9) (𝐚 main_arg10))
          (Cert.Spec.colOf (𝐚 main_arg2))) :=
  (KVal2.result_of_W10 m ρ c _ (W10_v96 m ρ c) (W10_v91 m ρ c) (W10_v1 m ρ c) (W10_v3 m ρ c) (W10_v27 m ρ c)
    (W10_v12 m ρ c) (W10_arg m ρ c main_arg2 (by decide) (by decide)) (W10_arg m ρ c main_arg7 (by decide) (by decide))
    (W10_arg m ρ c main_arg8 (by decide) (by decide)) (W10_arg m ρ c main_arg9 (by decide) (by decide))
    (W10_arg m ρ c main_arg10 (by decide) (by decide)) (W10_arg m ρ c main_arg11 (by decide) (by decide))
    (W10_arg m ρ c main_arg12 (by decide) (by decide))).trans rfl

end Cert.KernelIdeal.KVal

end
-- ==== Proof.ROps.lean ====
import proofs.«401582_j39573828665766_2_alg».proof.Proof.Gen.ReferenceIdeal
import Idealize.ShloMosaic.Lib.Pipeline.Frame

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

export Idealize.ShloMosaic.StableHlo (after_append)

variable {F : FTy → Type} [FloatOps F]

/-- The contents of a buffer of shape `s` and element type `e`. -/
abbrev C (s : Shape) (e : EltTy) : Type := (⟨s, e⟩ : BufTy).Contents (Elt F)

abbrev chunk0 : List (HloOp τ sig (Elt F)) :=
  [ unary main_arg1 main_v0 ((extractStridedSlice S1x800000 ![0, 0] · slices_S2x800000_S1x800000_0_0) : C S2x800000 .i32 → C S1x800000 .i32),
    reshape main_v0 main_v1 rfl shapeCasts_S1x800000_S800000,
    unary main_arg1 main_v2 ((extractStridedSlice S1x800000 ![1, 0] · slices_S2x800000_S1x800000_1_0) : C S2x800000 .i32 → C S1x800000 .i32),
    reshape main_v2 main_v3 rfl shapeCasts_S1x800000_S800000,
    nullary main_cst (constant S_ .f32 0x3F800000#32),
    unary main_cst main_v4 (broadcastInDim S800000 ![] bcast_S_S800000 : C S_ .f32 → C S800000 .f32),
    nullary main_cst_0 (constant S_ .f32 0x00000000#32),
    unary main_cst_0 main_v5 (broadcastInDim S50000 ![] bcast_S_S50000 : C S_ .f32 → C S50000 .f32),
    unary main_v3 main_v6 (broadcastInDim S800000x1 ![0] bcast_S800000_S800000x1_0 : C S800000 .i32 → C S800000x1 .i32),
    ternary main_v5 main_v6 main_v4 main_v7 ((fun x i u => Host.scatterAdd scatter_S50000_S800000x1_S800000_n_0_0_1 x i u) : C S50000 .f32 → C S800000x1 .i32 → C S800000 .f32 → C S50000 .f32),
    nullary main_cst_1 (constant S_ .f32 0x3F800000#32),
    unary main_cst_1 main_v8 (broadcastInDim S50000 ![] bcast_S_S50000 : C S_ .f32 → C S50000 .f32),
    binary main_v7 main_v8 main_v9 (addf : C S50000 .f32 → C S50000 .f32 → C S50000 .f32),
    unary main_v9 main_v10 (Host.rsqrt : C S50000 .f32 → C S50000 .f32),
    binary main_arg0 main_arg3 main_v11 ((fun l r => Host.dotGeneral dot_S50000x128_S128x128_S50000x128_1_0_0_1_n_n none l r) : C S50000x128 .f32 → C S128x128 .f32 → C S50000x128 .f32),
    nullary main_c (constantI S_ 32 0#32),
    unary main_c main_v12 (broadcastInDim S800000 ![] bcast_S_S800000 : C S_ .i32 → C S800000 .i32),
    binary main_v1 main_v12 main_v13 (cmpi .slt : C S800000 .i32 → C S800000 .i32 → C S800000 .i1),
    nullary main_c_2 (constantI S_ 32 50000#32),
    unary main_c_2 main_v14 (broadcastInDim S800000 ![] bcast_S_S800000 : C S_ .i32 → C S800000 .i32),
    binary main_v1 main_v14 main_v15 (addi : C S800000 .i32 → C S800000 .i32 → C S800000 .i32),
    ternary main_v13 main_v15 main_v1 main_v16 (select : C S800000 .i1 → C S800000 .i32 → C S800000 .i32 → C S800000 .i32),
    unary main_v16 main_v17 (broadcastInDim S800000x1 ![0] bcast_S800000_S800000x1_0 : C S800000 .i32 → C S800000x1 .i32),
    binary main_v10 main_v17 main_v18 ((fun x i => Host.gather gather_S50000_S800000x1_S800000_n_0_n_n_0_1_1 x i) : C S50000 .f32 → C S800000x1 .i32 → C S800000 .f32),
    nullary main_c_3 (constantI S_ 32 0#32),
    unary main_c_3 main_v19 (broadcastInDim S800000 ![] bcast_S_S800000 : C S_ .i32 → C S800000 .i32),
    binary main_v3 main_v19 main_v20 (cmpi .slt : C S800000 .i32 → C S800000 .i32 → C S800000 .i1),
    nullary main_c_4 (constantI S_ 32 50000#32),
    unary main_c_4 main_v21 (broadcastInDim S800000 ![] bcast_S_S800000 : C S_ .i32 → C S800000 .i32),
    binary main_v3 main_v21 main_v22 (addi : C S800000 .i32 → C S800000 .i32 → C S800000 .i32),
    ternary main_v20 main_v22 main_v3 main_v23 (select : C S800000 .i1 → C S800000 .i32 → C S800000 .i32 → C S800000 .i32),
    unary main_v23 main_v24 (broadcastInDim S800000x1 ![0] bcast_S800000_S800000x1_0 : C S800000 .i32 → C S800000x1 .i32),
    binary main_v10 main_v24 main_v25 ((fun x i => Host.gather gather_S50000_S800000x1_S800000_n_0_n_n_0_1_1 x i) : C S50000 .f32 → C S800000x1 .i32 → C S800000 .f32),
    binary main_v18 main_v25 main_v26 (mulf : C S800000 .f32 → C S800000 .f32 → C S800000 .f32),
    nullary main_c_5 (constantI S_ 32 0#32),
    unary main_c_5 main_v27 (broadcastInDim S800000 ![] bcast_S_S800000 : C S_ .i32 → C S800000 .i32),
    binary main_v1 main_v27 main_v28 (cmpi .slt : C S800000 .i32 → C S800000 .i32 → C S800000 .i1),
    nullary main_c_6 (constantI S_ 32 50000#32),
    unary main_c_6 main_v29 (broadcastInDim S800000 ![] bcast_S_S800000 : C S_ .i32 → C S800000 .i32),
    binary main_v1 main_v29 main_v30 (addi : C S800000 .i32 → C S800000 .i32 → C S800000 .i32),
    ternary main_v28 main_v30 main_v1 main_v31 (select : C S800000 .i1 → C S800000 .i32 → C S800000 .i32 → C S800000 .i32),
    unary main_v31 main_v32 (broadcastInDim S800000x1 ![0] bcast_S800000_S800000x1_0 : C S800000 .i32 → C S800000x1 .i32),
    binary main_v11 main_v32 main_v33 ((fun x i => Host.gather gather_S50000x128_S800000x1_S800000x128_1_0_n_n_0_1_1128 x i) : C S50000x128 .f32 → C S800000x1 .i32 → C S800000x128 .f32),
    unary main_v26 main_v34 (broadcastInDim S800000x1 ![0] bcast_S800000_S800000x1_0 : C S800000 .f32 → C S800000x1 .f32),
    unary main_v34 main_v35 (broadcastInDim S800000x128 ![0, 1] bcast_S800000x1_S800000x128_0_1 : C S800000x1 .f32 → C S800000x128 .f32),
    binary main_v33 main_v35 main_v36 (mulf : C S800000x128 .f32 → C S800000x128 .f32 → C S800000x128 .f32),
    nullary main_cst_7 (constant S_ .f32 0x00000000#32),
    unary main_cst_7 main_v37 (broadcastInDim S50000x128 ![] bcast_S_S50000x128 : C S_ .f32 → C S50000x128 .f32),
    unary main_v3 main_v38 (broadcastInDim S800000x1 ![0] bcast_S800000_S800000x1_0 : C S800000 .i32 → C S800000x1 .i32),
    ternary main_v37 main_v38 main_v36 main_v39 ((fun x i u => Host.scatterAdd scatter_S50000x128_S800000x1_S800000x128_1_0_0_1 x i u) : C S50000x128 .f32 → C S800000x1 .i32 → C S800000x128 .f32 → C S50000x128 .f32),
    binary main_v10 main_v10 main_v40 (mulf : C S50000 .f32 → C S50000 .f32 → C S50000 .f32),
    unary main_v40 main_v41 (broadcastInDim S50000x1 ![0] bcast_S50000_S50000x1_0 : C S50000 .f32 → C S50000x1 .f32),
    unary main_v41 main_v42 (broadcastInDim S50000x128 ![0, 1] bcast_S50000x1_S50000x128_0_1 : C S50000x1 .f32 → C S50000x128 .f32),
    binary main_v11 main_v42 main_v43 (mulf : C S50000x128 .f32 → C S50000x128 .f32 → C S50000x128 .f32),
    binary main_v39 main_v43 main_v44 (addf : C S50000x128 .f32 → C S50000x128 .f32 → C S50000x128 .f32),
    unary main_arg4 main_v45 (broadcastInDim S1x128 ![1] bcast_S128_S1x128_1 : C S128 .f32 → C S1x128 .f32),
    unary main_v45 main_v46 (broadcastInDim S50000x128 ![0, 1] bcast_S1x128_S50000x128_0_1 : C S1x128 .f32 → C S50000x128 .f32),
    binary main_v44 main_v46 main_v47 (addf : C S50000x128 .f32 → C S50000x128 .f32 → C S50000x128 .f32),
    nullary main_cst_8 (constant S_ .f32 0x00000000#32),
    binary main_v47 main_cst_8 main_v48 ((fun x v => Host.reduceAdd x v reducesTo_S50000x128_S128_d0 h_S_) : C S50000x128 .f32 → C S_ .f32 → C S128 .f32) ]

abbrev chunk1 : List (HloOp τ sig (Elt F)) :=
  [ nullary main_cst_9 (constant S_ .f32 0x47435000#32),
    unary main_cst_9 main_v49 (broadcastInDim S128 ![] bcast_S_S128 : C S_ .f32 → C S128 .f32),
    binary main_v48 main_v49 main_v50 (Host.divf : C S128 .f32 → C S128 .f32 → C S128 .f32),
    nullary main_c_10 (constantI S_ 32 0#32),
    TRef.nullary main_call0.cst (constant S_ .f32 0x00000000#32),
    TRef.binary (.of main_v47 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v47 : TRef sig ⟨S50000x128, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v50 main_v52 (broadcastInDim S1x128 ![1] bcast_S128_S1x128_1 : C S128 .f32 → C S1x128 .f32),
    unary main_v52 main_v53 (broadcastInDim S50000x128 ![0, 1] bcast_S1x128_S50000x128_0_1 : C S1x128 .f32 → C S50000x128 .f32),
    binary main_v47 main_v53 main_v54 (subf : C S50000x128 .f32 → C S50000x128 .f32 → C S50000x128 .f32),
    unary main_arg5 main_v55 (broadcastInDim S1x128 ![1] bcast_S128_S1x128_1 : C S128 .f32 → C S1x128 .f32),
    unary main_v55 main_v56 (broadcastInDim S50000x128 ![0, 1] bcast_S1x128_S50000x128_0_1 : C S1x128 .f32 → C S50000x128 .f32),
    binary main_v56 main_v54 main_v57 (mulf : C S50000x128 .f32 → C S50000x128 .f32 → C S50000x128 .f32),
    nullary main_cst_11 (constant S_ .f32 0x3727C5AC#32),
    unary main_cst_11 main_v58 (broadcastInDim S128 ![] bcast_S_S128 : C S_ .f32 → C S128 .f32),
    binary main_v51 main_v58 main_v59 (addf : C S128 .f32 → C S128 .f32 → C S128 .f32),
    unary main_v59 main_v60 (Host.rsqrt : C S128 .f32 → C S128 .f32),
    unary main_v60 main_v61 (broadcastInDim S1x128 ![1] bcast_S128_S1x128_1 : C S128 .f32 → C S1x128 .f32),
    unary main_v61 main_v62 (broadcastInDim S50000x128 ![0, 1] bcast_S1x128_S50000x128_0_1 : C S1x128 .f32 → C S50000x128 .f32),
    binary main_v57 main_v62 main_v63 (mulf : C S50000x128 .f32 → C S50000x128 .f32 → C S50000x128 .f32),
    unary main_arg6 main_v64 (broadcastInDim S1x128 ![1] bcast_S128_S1x128_1 : C S128 .f32 → C S1x128 .f32),
    unary main_v64 main_v65 (broadcastInDim S50000x128 ![0, 1] bcast_S1x128_S50000x128_0_1 : C S1x128 .f32 → C S50000x128 .f32),
    binary main_v63 main_v65 main_v66 (addf : C S50000x128 .f32 → C S50000x128 .f32 → C S50000x128 .f32),
    TRef.nullary main_call1.cst (constant S_ .f32 0x00000000#32),
    TRef.unary main_call1.cst main_call1.v0 (broadcastInDim S50000x128 ![] bcast_S_S50000x128),
    TRef.binary (.of main_v66 : TRef sig ⟨S50000x128, .f32⟩) main_call1.v0 main_call1.v1 maximumf ]

abbrev chunk2 : List (HloOp τ sig (Elt F)) :=
  [ unary main_arg7 main_v68 ((extractStridedSlice S1x128x128 ![0, 0, 0] · slices_S3x128x128_S1x128x128_0_0_0) : C S3x128x128 .f32 → C S1x128x128 .f32),
    reshape main_v68 main_v69 rfl shapeCasts_S1x128x128_S128x128,
    unary main_arg8 main_v70 ((extractStridedSlice S1x128 ![0, 0] · slices_S3x128_S1x128_0_0) : C S3x128 .f32 → C S1x128 .f32),
    reshape main_v70 main_v71 rfl shapeCasts_S1x128_S128,
    unary main_arg1 main_v72 ((extractStridedSlice S1x800000 ![0, 0] · slices_S2x800000_S1x800000_0_0) : C S2x800000 .i32 → C S1x800000 .i32),
    reshape main_v72 main_v73 rfl shapeCasts_S1x800000_S800000,
    unary main_arg1 main_v74 ((extractStridedSlice S1x800000 ![1, 0] · slices_S2x800000_S1x800000_1_0) : C S2x800000 .i32 → C S1x800000 .i32),
    reshape main_v74 main_v75 rfl shapeCasts_S1x800000_S800000,
    nullary main_cst_12 (constant S_ .f32 0x3F800000#32),
    unary main_cst_12 main_v76 (broadcastInDim S800000 ![] bcast_S_S800000 : C S_ .f32 → C S800000 .f32),
    nullary main_cst_13 (constant S_ .f32 0x00000000#32),
    unary main_cst_13 main_v77 (broadcastInDim S50000 ![] bcast_S_S50000 : C S_ .f32 → C S50000 .f32),
    unary main_v75 main_v78 (broadcastInDim S800000x1 ![0] bcast_S800000_S800000x1_0 : C S800000 .i32 → C S800000x1 .i32),
    ternary main_v77 main_v78 main_v76 main_v79 ((fun x i u => Host.scatterAdd scatter_S50000_S800000x1_S800000_n_0_0_1 x i u) : C S50000 .f32 → C S800000x1 .i32 → C S800000 .f32 → C S50000 .f32),
    nullary main_cst_14 (constant S_ .f32 0x3F800000#32),
    unary main_cst_14 main_v80 (broadcastInDim S50000 ![] bcast_S_S50000 : C S_ .f32 → C S50000 .f32),
    binary main_v79 main_v80 main_v81 (addf : C S50000 .f32 → C S50000 .f32 → C S50000 .f32),
    unary main_v81 main_v82 (Host.rsqrt : C S50000 .f32 → C S50000 .f32),
    binary main_v67 main_v69 main_v83 ((fun l r => Host.dotGeneral dot_S50000x128_S128x128_S50000x128_1_0_0_1_n_n none l r) : C S50000x128 .f32 → C S128x128 .f32 → C S50000x128 .f32),
    nullary main_c_15 (constantI S_ 32 0#32),
    unary main_c_15 main_v84 (broadcastInDim S800000 ![] bcast_S_S800000 : C S_ .i32 → C S800000 .i32),
    binary main_v73 main_v84 main_v85 (cmpi .slt : C S800000 .i32 → C S800000 .i32 → C S800000 .i1),
    nullary main_c_16 (constantI S_ 32 50000#32),
    unary main_c_16 main_v86 (broadcastInDim S800000 ![] bcast_S_S800000 : C S_ .i32 → C S800000 .i32),
    binary main_v73 main_v86 main_v87 (addi : C S800000 .i32 → C S800000 .i32 → C S800000 .i32),
    ternary main_v85 main_v87 main_v73 main_v88 (select : C S800000 .i1 → C S800000 .i32 → C S800000 .i32 → C S800000 .i32),
    unary main_v88 main_v89 (broadcastInDim S800000x1 ![0] bcast_S800000_S800000x1_0 : C S800000 .i32 → C S800000x1 .i32),
    binary main_v82 main_v89 main_v90 ((fun x i => Host.gather gather_S50000_S800000x1_S800000_n_0_n_n_0_1_1 x i) : C S50000 .f32 → C S800000x1 .i32 → C S800000 .f32),
    nullary main_c_17 (constantI S_ 32 0#32),
    unary main_c_17 main_v91 (broadcastInDim S800000 ![] bcast_S_S800000 : C S_ .i32 → C S800000 .i32),
    binary main_v75 main_v91 main_v92 (cmpi .slt : C S800000 .i32 → C S800000 .i32 → C S800000 .i1),
    nullary main_c_18 (constantI S_ 32 50000#32),
    unary main_c_18 main_v93 (broadcastInDim S800000 ![] bcast_S_S800000 : C S_ .i32 → C S800000 .i32),
    binary main_v75 main_v93 main_v94 (addi : C S800000 .i32 → C S800000 .i32 → C S800000 .i32),
    ternary main_v92 main_v94 main_v75 main_v95 (select : C S800000 .i1 → C S800000 .i32 → C S800000 .i32 → C S800000 .i32),
    unary main_v95 main_v96 (broadcastInDim S800000x1 ![0] bcast_S800000_S800000x1_0 : C S800000 .i32 → C S800000x1 .i32),
    binary main_v82 main_v96 main_v97 ((fun x i => Host.gather gather_S50000_S800000x1_S800000_n_0_n_n_0_1_1 x i) : C S50000 .f32 → C S800000x1 .i32 → C S800000 .f32),
    binary main_v90 main_v97 main_v98 (mulf : C S800000 .f32 → C S800000 .f32 → C S800000 .f32) ]

abbrev chunk3 : List (HloOp τ sig (Elt F)) :=
  [ nullary main_c_19 (constantI S_ 32 0#32),
    unary main_c_19 main_v99 (broadcastInDim S800000 ![] bcast_S_S800000 : C S_ .i32 → C S800000 .i32),
    binary main_v73 main_v99 main_v100 (cmpi .slt : C S800000 .i32 → C S800000 .i32 → C S800000 .i1),
    nullary main_c_20 (constantI S_ 32 50000#32),
    unary main_c_20 main_v101 (broadcastInDim S800000 ![] bcast_S_S800000 : C S_ .i32 → C S800000 .i32),
    binary main_v73 main_v101 main_v102 (addi : C S800000 .i32 → C S800000 .i32 → C S800000 .i32),
    ternary main_v100 main_v102 main_v73 main_v103 (select : C S800000 .i1 → C S800000 .i32 → C S800000 .i32 → C S800000 .i32),
    unary main_v103 main_v104 (broadcastInDim S800000x1 ![0] bcast_S800000_S800000x1_0 : C S800000 .i32 → C S800000x1 .i32),
    binary main_v83 main_v104 main_v105 ((fun x i => Host.gather gather_S50000x128_S800000x1_S800000x128_1_0_n_n_0_1_1128 x i) : C S50000x128 .f32 → C S800000x1 .i32 → C S800000x128 .f32),
    unary main_v98 main_v106 (broadcastInDim S800000x1 ![0] bcast_S800000_S800000x1_0 : C S800000 .f32 → C S800000x1 .f32),
    unary main_v106 main_v107 (broadcastInDim S800000x128 ![0, 1] bcast_S800000x1_S800000x128_0_1 : C S800000x1 .f32 → C S800000x128 .f32),
    binary main_v105 main_v107 main_v108 (mulf : C S800000x128 .f32 → C S800000x128 .f32 → C S800000x128 .f32),
    nullary main_cst_21 (constant S_ .f32 0x00000000#32),
    unary main_cst_21 main_v109 (broadcastInDim S50000x128 ![] bcast_S_S50000x128 : C S_ .f32 → C S50000x128 .f32),
    unary main_v75 main_v110 (broadcastInDim S800000x1 ![0] bcast_S800000_S800000x1_0 : C S800000 .i32 → C S800000x1 .i32),
    ternary main_v109 main_v110 main_v108 main_v111 ((fun x i u => Host.scatterAdd scatter_S50000x128_S800000x1_S800000x128_1_0_0_1 x i u) : C S50000x128 .f32 → C S800000x1 .i32 → C S800000x128 .f32 → C S50000x128 .f32),
    binary main_v82 main_v82 main_v112 (mulf : C S50000 .f32 → C S50000 .f32 → C S50000 .f32),
    unary main_v112 main_v113 (broadcastInDim S50000x1 ![0] bcast_S50000_S50000x1_0 : C S50000 .f32 → C S50000x1 .f32),
    unary main_v113 main_v114 (broadcastInDim S50000x128 ![0, 1] bcast_S50000x1_S50000x128_0_1 : C S50000x1 .f32 → C S50000x128 .f32),
    binary main_v83 main_v114 main_v115 (mulf : C S50000x128 .f32 → C S50000x128 .f32 → C S50000x128 .f32),
    binary main_v111 main_v115 main_v116 (addf : C S50000x128 .f32 → C S50000x128 .f32 → C S50000x128 .f32),
    unary main_v71 main_v117 (broadcastInDim S1x128 ![1] bcast_S128_S1x128_1 : C S128 .f32 → C S1x128 .f32),
    unary main_v117 main_v118 (broadcastInDim S50000x128 ![0, 1] bcast_S1x128_S50000x128_0_1 : C S1x128 .f32 → C S50000x128 .f32),
    binary main_v116 main_v118 main_v119 (addf : C S50000x128 .f32 → C S50000x128 .f32 → C S50000x128 .f32),
    unary main_arg9 main_v120 ((extractStridedSlice S1x128 ![0, 0] · slices_S3x128_S1x128_0_0) : C S3x128 .f32 → C S1x128 .f32),
    reshape main_v120 main_v121 rfl shapeCasts_S1x128_S128,
    unary main_arg10 main_v122 ((extractStridedSlice S1x128 ![0, 0] · slices_S3x128_S1x128_0_0) : C S3x128 .f32 → C S1x128 .f32),
    reshape main_v122 main_v123 rfl shapeCasts_S1x128_S128,
    nullary main_cst_22 (constant S_ .f32 0x00000000#32),
    binary main_v119 main_cst_22 main_v124 ((fun x v => Host.reduceAdd x v reducesTo_S50000x128_S128_d0 h_S_) : C S50000x128 .f32 → C S_ .f32 → C S128 .f32),
    nullary main_cst_23 (constant S_ .f32 0x47435000#32),
    unary main_cst_23 main_v125 (broadcastInDim S128 ![] bcast_S_S128 : C S_ .f32 → C S128 .f32),
    binary main_v124 main_v125 main_v126 (Host.divf : C S128 .f32 → C S128 .f32 → C S128 .f32),
    nullary main_c_24 (constantI S_ 32 0#32),
    TRef.nullary main_call2.cst (constant S_ .f32 0x00000000#32),
    TRef.binary (.of main_v119 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v119 : TRef sig ⟨S50000x128, .f32⟩) main_call2.v4 main_call2.v5 subf,
    TRef.binary main_call2.v5 main_call2.v5 main_call2.v6 mulf,
    TRef.unary (.of main_c_24 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v126 main_v128 (broadcastInDim S1x128 ![1] bcast_S128_S1x128_1 : C S128 .f32 → C S1x128 .f32),
    unary main_v128 main_v129 (broadcastInDim S50000x128 ![0, 1] bcast_S1x128_S50000x128_0_1 : C S1x128 .f32 → C S50000x128 .f32),
    binary main_v119 main_v129 main_v130 (subf : C S50000x128 .f32 → C S50000x128 .f32 → C S50000x128 .f32),
    unary main_v121 main_v131 (broadcastInDim S1x128 ![1] bcast_S128_S1x128_1 : C S128 .f32 → C S1x128 .f32),
    unary main_v131 main_v132 (broadcastInDim S50000x128 ![0, 1] bcast_S1x128_S50000x128_0_1 : C S1x128 .f32 → C S50000x128 .f32),
    binary main_v132 main_v130 main_v133 (mulf : C S50000x128 .f32 → C S50000x128 .f32 → C S50000x128 .f32),
    nullary main_cst_25 (constant S_ .f32 0x3727C5AC#32),
    unary main_cst_25 main_v134 (broadcastInDim S128 ![] bcast_S_S128 : C S_ .f32 → C S128 .f32),
    binary main_v127 main_v134 main_v135 (addf : C S128 .f32 → C S128 .f32 → C S128 .f32),
    unary main_v135 main_v136 (Host.rsqrt : C S128 .f32 → C S128 .f32),
    unary main_v136 main_v137 (broadcastInDim S1x128 ![1] bcast_S128_S1x128_1 : C S128 .f32 → C S1x128 .f32),
    unary main_v137 main_v138 (broadcastInDim S50000x128 ![0, 1] bcast_S1x128_S50000x128_0_1 : C S1x128 .f32 → C S50000x128 .f32),
    binary main_v133 main_v138 main_v139 (mulf : C S50000x128 .f32 → C S50000x128 .f32 → C S50000x128 .f32),
    unary main_v123 main_v140 (broadcastInDim S1x128 ![1] bcast_S128_S1x128_1 : C S128 .f32 → C S1x128 .f32),
    unary main_v140 main_v141 (broadcastInDim S50000x128 ![0, 1] bcast_S1x128_S50000x128_0_1 : C S1x128 .f32 → C S50000x128 .f32),
    binary main_v139 main_v141 main_v142 (addf : C S50000x128 .f32 → C S50000x128 .f32 → C S50000x128 .f32),
    TRef.nullary main_call3.cst (constant S_ .f32 0x00000000#32),
    TRef.unary main_call3.cst main_call3.v0 (broadcastInDim S50000x128 ![] bcast_S_S50000x128),
    TRef.binary (.of main_v142 : TRef sig ⟨S50000x128, .f32⟩) main_call3.v0 main_call3.v1 maximumf ]

abbrev chunk4 : List (HloOp τ sig (Elt F)) :=
  [ unary main_arg7 main_v144 ((extractStridedSlice S1x128x128 ![1, 0, 0] · slices_S3x128x128_S1x128x128_1_0_0) : C S3x128x128 .f32 → C S1x128x128 .f32),
    reshape main_v144 main_v145 rfl shapeCasts_S1x128x128_S128x128,
    unary main_arg8 main_v146 ((extractStridedSlice S1x128 ![1, 0] · slices_S3x128_S1x128_1_0) : C S3x128 .f32 → C S1x128 .f32),
    reshape main_v146 main_v147 rfl shapeCasts_S1x128_S128,
    unary main_arg1 main_v148 ((extractStridedSlice S1x800000 ![0, 0] · slices_S2x800000_S1x800000_0_0) : C S2x800000 .i32 → C S1x800000 .i32),
    reshape main_v148 main_v149 rfl shapeCasts_S1x800000_S800000,
    unary main_arg1 main_v150 ((extractStridedSlice S1x800000 ![1, 0] · slices_S2x800000_S1x800000_1_0) : C S2x800000 .i32 → C S1x800000 .i32),
    reshape main_v150 main_v151 rfl shapeCasts_S1x800000_S800000 ]

abbrev chunk5 : List (HloOp τ sig (Elt F)) :=
  [ nullary main_cst_26 (constant S_ .f32 0x3F800000#32),
    unary main_cst_26 main_v152 (broadcastInDim S800000 ![] bcast_S_S800000 : C S_ .f32 → C S800000 .f32),
    nullary main_cst_27 (constant S_ .f32 0x00000000#32),
    unary main_cst_27 main_v153 (broadcastInDim S50000 ![] bcast_S_S50000 : C S_ .f32 → C S50000 .f32),
    unary main_v151 main_v154 (broadcastInDim S800000x1 ![0] bcast_S800000_S800000x1_0 : C S800000 .i32 → C S800000x1 .i32),
    ternary main_v153 main_v154 main_v152 main_v155 ((fun x i u => Host.scatterAdd scatter_S50000_S800000x1_S800000_n_0_0_1 x i u) : C S50000 .f32 → C S800000x1 .i32 → C S800000 .f32 → C S50000 .f32),
    nullary main_cst_28 (constant S_ .f32 0x3F800000#32),
    unary main_cst_28 main_v156 (broadcastInDim S50000 ![] bcast_S_S50000 : C S_ .f32 → C S50000 .f32),
    binary main_v155 main_v156 main_v157 (addf : C S50000 .f32 → C S50000 .f32 → C S50000 .f32),
    unary main_v157 main_v158 (Host.rsqrt : C S50000 .f32 → C S50000 .f32),
    binary main_v143 main_v145 main_v159 ((fun l r => Host.dotGeneral dot_S50000x128_S128x128_S50000x128_1_0_0_1_n_n none l r) : C S50000x128 .f32 → C S128x128 .f32 → C S50000x128 .f32),
    nullary main_c_29 (constantI S_ 32 0#32),
    unary main_c_29 main_v160 (broadcastInDim S800000 ![] bcast_S_S800000 : C S_ .i32 → C S800000 .i32),
    binary main_v149 main_v160 main_v161 (cmpi .slt : C S800000 .i32 → C S800000 .i32 → C S800000 .i1),
    nullary main_c_30 (constantI S_ 32 50000#32),
    unary main_c_30 main_v162 (broadcastInDim S800000 ![] bcast_S_S800000 : C S_ .i32 → C S800000 .i32),
    binary main_v149 main_v162 main_v163 (addi : C S800000 .i32 → C S800000 .i32 → C S800000 .i32),
    ternary main_v161 main_v163 main_v149 main_v164 (select : C S800000 .i1 → C S800000 .i32 → C S800000 .i32 → C S800000 .i32),
    unary main_v164 main_v165 (broadcastInDim S800000x1 ![0] bcast_S800000_S800000x1_0 : C S800000 .i32 → C S800000x1 .i32),
    binary main_v158 main_v165 main_v166 ((fun x i => Host.gather gather_S50000_S800000x1_S800000_n_0_n_n_0_1_1 x i) : C S50000 .f32 → C S800000x1 .i32 → C S800000 .f32),
    nullary main_c_31 (constantI S_ 32 0#32),
    unary main_c_31 main_v167 (broadcastInDim S800000 ![] bcast_S_S800000 : C S_ .i32 → C S800000 .i32),
    binary main_v151 main_v167 main_v168 (cmpi .slt : C S800000 .i32 → C S800000 .i32 → C S800000 .i1),
    nullary main_c_32 (constantI S_ 32 50000#32),
    unary main_c_32 main_v169 (broadcastInDim S800000 ![] bcast_S_S800000 : C S_ .i32 → C S800000 .i32),
    binary main_v151 main_v169 main_v170 (addi : C S800000 .i32 → C S800000 .i32 → C S800000 .i32),
    ternary main_v168 main_v170 main_v151 main_v171 (select : C S800000 .i1 → C S800000 .i32 → C S800000 .i32 → C S800000 .i32),
    unary main_v171 main_v172 (broadcastInDim S800000x1 ![0] bcast_S800000_S800000x1_0 : C S800000 .i32 → C S800000x1 .i32),
    binary main_v158 main_v172 main_v173 ((fun x i => Host.gather gather_S50000_S800000x1_S800000_n_0_n_n_0_1_1 x i) : C S50000 .f32 → C S800000x1 .i32 → C S800000 .f32),
    binary main_v166 main_v173 main_v174 (mulf : C S800000 .f32 → C S800000 .f32 → C S800000 .f32),
    nullary main_c_33 (constantI S_ 32 0#32),
    unary main_c_33 main_v175 (broadcastInDim S800000 ![] bcast_S_S800000 : C S_ .i32 → C S800000 .i32),
    binary main_v149 main_v175 main_v176 (cmpi .slt : C S800000 .i32 → C S800000 .i32 → C S800000 .i1),
    nullary main_c_34 (constantI S_ 32 50000#32),
    unary main_c_34 main_v177 (broadcastInDim S800000 ![] bcast_S_S800000 : C S_ .i32 → C S800000 .i32),
    binary main_v149 main_v177 main_v178 (addi : C S800000 .i32 → C S800000 .i32 → C S800000 .i32),
    ternary main_v176 main_v178 main_v149 main_v179 (select : C S800000 .i1 → C S800000 .i32 → C S800000 .i32 → C S800000 .i32),
    unary main_v179 main_v180 (broadcastInDim S800000x1 ![0] bcast_S800000_S800000x1_0 : C S800000 .i32 → C S800000x1 .i32),
    binary main_v159 main_v180 main_v181 ((fun x i => Host.gather gather_S50000x128_S800000x1_S800000x128_1_0_n_n_0_1_1128 x i) : C S50000x128 .f32 → C S800000x1 .i32 → C S800000x128 .f32),
    unary main_v174 main_v182 (broadcastInDim S800000x1 ![0] bcast_S800000_S800000x1_0 : C S800000 .f32 → C S800000x1 .f32),
    unary main_v182 main_v183 (broadcastInDim S800000x128 ![0, 1] bcast_S800000x1_S800000x128_0_1 : C S800000x1 .f32 → C S800000x128 .f32),
    binary main_v181 main_v183 main_v184 (mulf : C S800000x128 .f32 → C S800000x128 .f32 → C S800000x128 .f32),
    nullary main_cst_35 (constant S_ .f32 0x00000000#32),
    unary main_cst_35 main_v185 (broadcastInDim S50000x128 ![] bcast_S_S50000x128 : C S_ .f32 → C S50000x128 .f32),
    unary main_v151 main_v186 (broadcastInDim S800000x1 ![0] bcast_S800000_S800000x1_0 : C S800000 .i32 → C S800000x1 .i32),
    ternary main_v185 main_v186 main_v184 main_v187 ((fun x i u => Host.scatterAdd scatter_S50000x128_S800000x1_S800000x128_1_0_0_1 x i u) : C S50000x128 .f32 → C S800000x1 .i32 → C S800000x128 .f32 → C S50000x128 .f32),
    binary main_v158 main_v158 main_v188 (mulf : C S50000 .f32 → C S50000 .f32 → C S50000 .f32),
    unary main_v188 main_v189 (broadcastInDim S50000x1 ![0] bcast_S50000_S50000x1_0 : C S50000 .f32 → C S50000x1 .f32),
    unary main_v189 main_v190 (broadcastInDim S50000x128 ![0, 1] bcast_S50000x1_S50000x128_0_1 : C S50000x1 .f32 → C S50000x128 .f32),
    binary main_v159 main_v190 main_v191 (mulf : C S50000x128 .f32 → C S50000x128 .f32 → C S50000x128 .f32),
    binary main_v187 main_v191 main_v192 (addf : C S50000x128 .f32 → C S50000x128 .f32 → C S50000x128 .f32),
    unary main_v147 main_v193 (broadcastInDim S1x128 ![1] bcast_S128_S1x128_1 : C S128 .f32 → C S1x128 .f32),
    unary main_v193 main_v194 (broadcastInDim S50000x128 ![0, 1] bcast_S1x128_S50000x128_0_1 : C S1x128 .f32 → C S50000x128 .f32),
    binary main_v192 main_v194 main_v195 (addf : C S50000x128 .f32 → C S50000x128 .f32 → C S50000x128 .f32),
    unary main_arg9 main_v196 ((extractStridedSlice S1x128 ![1, 0] · slices_S3x128_S1x128_1_0) : C S3x128 .f32 → C S1x128 .f32),
    reshape main_v196 main_v197 rfl shapeCasts_S1x128_S128,
    unary main_arg10 main_v198 ((extractStridedSlice S1x128 ![1, 0] · slices_S3x128_S1x128_1_0) : C S3x128 .f32 → C S1x128 .f32),
    reshape main_v198 main_v199 rfl shapeCasts_S1x128_S128,
    nullary main_cst_36 (constant S_ .f32 0x00000000#32),
    binary main_v195 main_cst_36 main_v200 ((fun x v => Host.reduceAdd x v reducesTo_S50000x128_S128_d0 h_S_) : C S50000x128 .f32 → C S_ .f32 → C S128 .f32) ]

abbrev chunk6 : List (HloOp τ sig (Elt F)) :=
  [ nullary main_cst_37 (constant S_ .f32 0x47435000#32),
    unary main_cst_37 main_v201 (broadcastInDim S128 ![] bcast_S_S128 : C S_ .f32 → C S128 .f32),
    binary main_v200 main_v201 main_v202 (Host.divf : C S128 .f32 → C S128 .f32 → C S128 .f32),
    nullary main_c_38 (constantI S_ 32 0#32),
    TRef.nullary main_call4.cst (constant S_ .f32 0x00000000#32),
    TRef.binary (.of main_v195 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v195 : TRef sig ⟨S50000x128, .f32⟩) main_call4.v4 main_call4.v5 subf,
    TRef.binary main_call4.v5 main_call4.v5 main_call4.v6 mulf,
    TRef.unary (.of main_c_38 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v202 main_v204 (broadcastInDim S1x128 ![1] bcast_S128_S1x128_1 : C S128 .f32 → C S1x128 .f32),
    unary main_v204 main_v205 (broadcastInDim S50000x128 ![0, 1] bcast_S1x128_S50000x128_0_1 : C S1x128 .f32 → C S50000x128 .f32),
    binary main_v195 main_v205 main_v206 (subf : C S50000x128 .f32 → C S50000x128 .f32 → C S50000x128 .f32),
    unary main_v197 main_v207 (broadcastInDim S1x128 ![1] bcast_S128_S1x128_1 : C S128 .f32 → C S1x128 .f32),
    unary main_v207 main_v208 (broadcastInDim S50000x128 ![0, 1] bcast_S1x128_S50000x128_0_1 : C S1x128 .f32 → C S50000x128 .f32),
    binary main_v208 main_v206 main_v209 (mulf : C S50000x128 .f32 → C S50000x128 .f32 → C S50000x128 .f32),
    nullary main_cst_39 (constant S_ .f32 0x3727C5AC#32),
    unary main_cst_39 main_v210 (broadcastInDim S128 ![] bcast_S_S128 : C S_ .f32 → C S128 .f32),
    binary main_v203 main_v210 main_v211 (addf : C S128 .f32 → C S128 .f32 → C S128 .f32),
    unary main_v211 main_v212 (Host.rsqrt : C S128 .f32 → C S128 .f32),
    unary main_v212 main_v213 (broadcastInDim S1x128 ![1] bcast_S128_S1x128_1 : C S128 .f32 → C S1x128 .f32),
    unary main_v213 main_v214 (broadcastInDim S50000x128 ![0, 1] bcast_S1x128_S50000x128_0_1 : C S1x128 .f32 → C S50000x128 .f32),
    binary main_v209 main_v214 main_v215 (mulf : C S50000x128 .f32 → C S50000x128 .f32 → C S50000x128 .f32),
    unary main_v199 main_v216 (broadcastInDim S1x128 ![1] bcast_S128_S1x128_1 : C S128 .f32 → C S1x128 .f32),
    unary main_v216 main_v217 (broadcastInDim S50000x128 ![0, 1] bcast_S1x128_S50000x128_0_1 : C S1x128 .f32 → C S50000x128 .f32),
    binary main_v215 main_v217 main_v218 (addf : C S50000x128 .f32 → C S50000x128 .f32 → C S50000x128 .f32),
    TRef.nullary main_call5.cst (constant S_ .f32 0x00000000#32),
    TRef.unary main_call5.cst main_call5.v0 (broadcastInDim S50000x128 ![] bcast_S_S50000x128),
    TRef.binary (.of main_v218 : TRef sig ⟨S50000x128, .f32⟩) main_call5.v0 main_call5.v1 maximumf ]

abbrev chunk7 : List (HloOp τ sig (Elt F)) :=
  [ unary main_arg7 main_v220 ((extractStridedSlice S1x128x128 ![2, 0, 0] · slices_S3x128x128_S1x128x128_2_0_0) : C S3x128x128 .f32 → C S1x128x128 .f32),
    reshape main_v220 main_v221 rfl shapeCasts_S1x128x128_S128x128,
    unary main_arg8 main_v222 ((extractStridedSlice S1x128 ![2, 0] · slices_S3x128_S1x128_2_0) : C S3x128 .f32 → C S1x128 .f32),
    reshape main_v222 main_v223 rfl shapeCasts_S1x128_S128,
    unary main_arg1 main_v224 ((extractStridedSlice S1x800000 ![0, 0] · slices_S2x800000_S1x800000_0_0) : C S2x800000 .i32 → C S1x800000 .i32),
    reshape main_v224 main_v225 rfl shapeCasts_S1x800000_S800000,
    unary main_arg1 main_v226 ((extractStridedSlice S1x800000 ![1, 0] · slices_S2x800000_S1x800000_1_0) : C S2x800000 .i32 → C S1x800000 .i32),
    reshape main_v226 main_v227 rfl shapeCasts_S1x800000_S800000,
    nullary main_cst_40 (constant S_ .f32 0x3F800000#32),
    unary main_cst_40 main_v228 (broadcastInDim S800000 ![] bcast_S_S800000 : C S_ .f32 → C S800000 .f32),
    nullary main_cst_41 (constant S_ .f32 0x00000000#32),
    unary main_cst_41 main_v229 (broadcastInDim S50000 ![] bcast_S_S50000 : C S_ .f32 → C S50000 .f32),
    unary main_v227 main_v230 (broadcastInDim S800000x1 ![0] bcast_S800000_S800000x1_0 : C S800000 .i32 → C S800000x1 .i32),
    ternary main_v229 main_v230 main_v228 main_v231 ((fun x i u => Host.scatterAdd scatter_S50000_S800000x1_S800000_n_0_0_1 x i u) : C S50000 .f32 → C S800000x1 .i32 → C S800000 .f32 → C S50000 .f32),
    nullary main_cst_42 (constant S_ .f32 0x3F800000#32),
    unary main_cst_42 main_v232 (broadcastInDim S50000 ![] bcast_S_S50000 : C S_ .f32 → C S50000 .f32),
    binary main_v231 main_v232 main_v233 (addf : C S50000 .f32 → C S50000 .f32 → C S50000 .f32),
    unary main_v233 main_v234 (Host.rsqrt : C S50000 .f32 → C S50000 .f32),
    binary main_v219 main_v221 main_v235 ((fun l r => Host.dotGeneral dot_S50000x128_S128x128_S50000x128_1_0_0_1_n_n none l r) : C S50000x128 .f32 → C S128x128 .f32 → C S50000x128 .f32),
    nullary main_c_43 (constantI S_ 32 0#32),
    unary main_c_43 main_v236 (broadcastInDim S800000 ![] bcast_S_S800000 : C S_ .i32 → C S800000 .i32),
    binary main_v225 main_v236 main_v237 (cmpi .slt : C S800000 .i32 → C S800000 .i32 → C S800000 .i1),
    nullary main_c_44 (constantI S_ 32 50000#32),
    unary main_c_44 main_v238 (broadcastInDim S800000 ![] bcast_S_S800000 : C S_ .i32 → C S800000 .i32),
    binary main_v225 main_v238 main_v239 (addi : C S800000 .i32 → C S800000 .i32 → C S800000 .i32),
    ternary main_v237 main_v239 main_v225 main_v240 (select : C S800000 .i1 → C S800000 .i32 → C S800000 .i32 → C S800000 .i32),
    unary main_v240 main_v241 (broadcastInDim S800000x1 ![0] bcast_S800000_S800000x1_0 : C S800000 .i32 → C S800000x1 .i32),
    binary main_v234 main_v241 main_v242 ((fun x i => Host.gather gather_S50000_S800000x1_S800000_n_0_n_n_0_1_1 x i) : C S50000 .f32 → C S800000x1 .i32 → C S800000 .f32),
    nullary main_c_45 (constantI S_ 32 0#32),
    unary main_c_45 main_v243 (broadcastInDim S800000 ![] bcast_S_S800000 : C S_ .i32 → C S800000 .i32),
    binary main_v227 main_v243 main_v244 (cmpi .slt : C S800000 .i32 → C S800000 .i32 → C S800000 .i1),
    nullary main_c_46 (constantI S_ 32 50000#32),
    unary main_c_46 main_v245 (broadcastInDim S800000 ![] bcast_S_S800000 : C S_ .i32 → C S800000 .i32),
    binary main_v227 main_v245 main_v246 (addi : C S800000 .i32 → C S800000 .i32 → C S800000 .i32),
    ternary main_v244 main_v246 main_v227 main_v247 (select : C S800000 .i1 → C S800000 .i32 → C S800000 .i32 → C S800000 .i32),
    unary main_v247 main_v248 (broadcastInDim S800000x1 ![0] bcast_S800000_S800000x1_0 : C S800000 .i32 → C S800000x1 .i32),
    binary main_v234 main_v248 main_v249 ((fun x i => Host.gather gather_S50000_S800000x1_S800000_n_0_n_n_0_1_1 x i) : C S50000 .f32 → C S800000x1 .i32 → C S800000 .f32),
    binary main_v242 main_v249 main_v250 (mulf : C S800000 .f32 → C S800000 .f32 → C S800000 .f32) ]

abbrev chunk8 : List (HloOp τ sig (Elt F)) :=
  [ nullary main_c_47 (constantI S_ 32 0#32),
    unary main_c_47 main_v251 (broadcastInDim S800000 ![] bcast_S_S800000 : C S_ .i32 → C S800000 .i32),
    binary main_v225 main_v251 main_v252 (cmpi .slt : C S800000 .i32 → C S800000 .i32 → C S800000 .i1),
    nullary main_c_48 (constantI S_ 32 50000#32),
    unary main_c_48 main_v253 (broadcastInDim S800000 ![] bcast_S_S800000 : C S_ .i32 → C S800000 .i32),
    binary main_v225 main_v253 main_v254 (addi : C S800000 .i32 → C S800000 .i32 → C S800000 .i32),
    ternary main_v252 main_v254 main_v225 main_v255 (select : C S800000 .i1 → C S800000 .i32 → C S800000 .i32 → C S800000 .i32),
    unary main_v255 main_v256 (broadcastInDim S800000x1 ![0] bcast_S800000_S800000x1_0 : C S800000 .i32 → C S800000x1 .i32),
    binary main_v235 main_v256 main_v257 ((fun x i => Host.gather gather_S50000x128_S800000x1_S800000x128_1_0_n_n_0_1_1128 x i) : C S50000x128 .f32 → C S800000x1 .i32 → C S800000x128 .f32),
    unary main_v250 main_v258 (broadcastInDim S800000x1 ![0] bcast_S800000_S800000x1_0 : C S800000 .f32 → C S800000x1 .f32),
    unary main_v258 main_v259 (broadcastInDim S800000x128 ![0, 1] bcast_S800000x1_S800000x128_0_1 : C S800000x1 .f32 → C S800000x128 .f32),
    binary main_v257 main_v259 main_v260 (mulf : C S800000x128 .f32 → C S800000x128 .f32 → C S800000x128 .f32),
    nullary main_cst_49 (constant S_ .f32 0x00000000#32),
    unary main_cst_49 main_v261 (broadcastInDim S50000x128 ![] bcast_S_S50000x128 : C S_ .f32 → C S50000x128 .f32),
    unary main_v227 main_v262 (broadcastInDim S800000x1 ![0] bcast_S800000_S800000x1_0 : C S800000 .i32 → C S800000x1 .i32),
    ternary main_v261 main_v262 main_v260 main_v263 ((fun x i u => Host.scatterAdd scatter_S50000x128_S800000x1_S800000x128_1_0_0_1 x i u) : C S50000x128 .f32 → C S800000x1 .i32 → C S800000x128 .f32 → C S50000x128 .f32),
    binary main_v234 main_v234 main_v264 (mulf : C S50000 .f32 → C S50000 .f32 → C S50000 .f32),
    unary main_v264 main_v265 (broadcastInDim S50000x1 ![0] bcast_S50000_S50000x1_0 : C S50000 .f32 → C S50000x1 .f32),
    unary main_v265 main_v266 (broadcastInDim S50000x128 ![0, 1] bcast_S50000x1_S50000x128_0_1 : C S50000x1 .f32 → C S50000x128 .f32),
    binary main_v235 main_v266 main_v267 (mulf : C S50000x128 .f32 → C S50000x128 .f32 → C S50000x128 .f32),
    binary main_v263 main_v267 main_v268 (addf : C S50000x128 .f32 → C S50000x128 .f32 → C S50000x128 .f32),
    unary main_v223 main_v269 (broadcastInDim S1x128 ![1] bcast_S128_S1x128_1 : C S128 .f32 → C S1x128 .f32),
    unary main_v269 main_v270 (broadcastInDim S50000x128 ![0, 1] bcast_S1x128_S50000x128_0_1 : C S1x128 .f32 → C S50000x128 .f32),
    binary main_v268 main_v270 main_v271 (addf : C S50000x128 .f32 → C S50000x128 .f32 → C S50000x128 .f32),
    unary main_arg9 main_v272 ((extractStridedSlice S1x128 ![2, 0] · slices_S3x128_S1x128_2_0) : C S3x128 .f32 → C S1x128 .f32),
    reshape main_v272 main_v273 rfl shapeCasts_S1x128_S128,
    unary main_arg10 main_v274 ((extractStridedSlice S1x128 ![2, 0] · slices_S3x128_S1x128_2_0) : C S3x128 .f32 → C S1x128 .f32),
    reshape main_v274 main_v275 rfl shapeCasts_S1x128_S128,
    nullary main_cst_50 (constant S_ .f32 0x00000000#32),
    binary main_v271 main_cst_50 main_v276 ((fun x v => Host.reduceAdd x v reducesTo_S50000x128_S128_d0 h_S_) : C S50000x128 .f32 → C S_ .f32 → C S128 .f32),
    nullary main_cst_51 (constant S_ .f32 0x47435000#32),
    unary main_cst_51 main_v277 (broadcastInDim S128 ![] bcast_S_S128 : C S_ .f32 → C S128 .f32),
    binary main_v276 main_v277 main_v278 (Host.divf : C S128 .f32 → C S128 .f32 → C S128 .f32),
    nullary main_c_52 (constantI S_ 32 0#32),
    TRef.nullary main_call6.cst (constant S_ .f32 0x00000000#32),
    TRef.binary (.of main_v271 : TRef sig ⟨S50000x128, .f32⟩) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v271 : TRef sig ⟨S50000x128, .f32⟩) main_call6.v4 main_call6.v5 subf,
    TRef.binary main_call6.v5 main_call6.v5 main_call6.v6 mulf,
    TRef.unary (.of main_c_52 : TRef sig ⟨S_, .i32⟩) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_v278 main_v280 (broadcastInDim S1x128 ![1] bcast_S128_S1x128_1 : C S128 .f32 → C S1x128 .f32),
    unary main_v280 main_v281 (broadcastInDim S50000x128 ![0, 1] bcast_S1x128_S50000x128_0_1 : C S1x128 .f32 → C S50000x128 .f32),
    binary main_v271 main_v281 main_v282 (subf : C S50000x128 .f32 → C S50000x128 .f32 → C S50000x128 .f32),
    unary main_v273 main_v283 (broadcastInDim S1x128 ![1] bcast_S128_S1x128_1 : C S128 .f32 → C S1x128 .f32),
    unary main_v283 main_v284 (broadcastInDim S50000x128 ![0, 1] bcast_S1x128_S50000x128_0_1 : C S1x128 .f32 → C S50000x128 .f32),
    binary main_v284 main_v282 main_v285 (mulf : C S50000x128 .f32 → C S50000x128 .f32 → C S50000x128 .f32),
    nullary main_cst_53 (constant S_ .f32 0x3727C5AC#32),
    unary main_cst_53 main_v286 (broadcastInDim S128 ![] bcast_S_S128 : C S_ .f32 → C S128 .f32),
    binary main_v279 main_v286 main_v287 (addf : C S128 .f32 → C S128 .f32 → C S128 .f32),
    unary main_v287 main_v288 (Host.rsqrt : C S128 .f32 → C S128 .f32),
    unary main_v288 main_v289 (broadcastInDim S1x128 ![1] bcast_S128_S1x128_1 : C S128 .f32 → C S1x128 .f32),
    unary main_v289 main_v290 (broadcastInDim S50000x128 ![0, 1] bcast_S1x128_S50000x128_0_1 : C S1x128 .f32 → C S50000x128 .f32),
    binary main_v285 main_v290 main_v291 (mulf : C S50000x128 .f32 → C S50000x128 .f32 → C S50000x128 .f32),
    unary main_v275 main_v292 (broadcastInDim S1x128 ![1] bcast_S128_S1x128_1 : C S128 .f32 → C S1x128 .f32),
    unary main_v292 main_v293 (broadcastInDim S50000x128 ![0, 1] bcast_S1x128_S50000x128_0_1 : C S1x128 .f32 → C S50000x128 .f32),
    binary main_v291 main_v293 main_v294 (addf : C S50000x128 .f32 → C S50000x128 .f32 → C S50000x128 .f32),
    TRef.nullary main_call7.cst (constant S_ .f32 0x00000000#32),
    TRef.unary main_call7.cst main_call7.v0 (broadcastInDim S50000x128 ![] bcast_S_S50000x128),
    TRef.binary (.of main_v294 : TRef sig ⟨S50000x128, .f32⟩) main_call7.v0 main_call7.v1 maximumf ]

abbrev chunk9 : List (HloOp τ sig (Elt F)) :=
  [ nullary main_cst_54 (constant S_ .f32 0x00000000#32),
    unary main_cst_54 main_v296 (broadcastInDim S512x128 ![] bcast_S_S512x128 : C S_ .f32 → C S512x128 .f32),
    unary main_arg2 main_v297 (broadcastInDim S50000x1 ![0] bcast_S50000_S50000x1_0 : C S50000 .i32 → C S50000x1 .i32),
    ternary main_v296 main_v297 main_v295 main_v298 ((fun x i u => Host.scatterAdd scatter_S512x128_S50000x1_S50000x128_1_0_0_1 x i u) : C S512x128 .f32 → C S50000x1 .i32 → C S50000x128 .f32 → C S512x128 .f32),
    nullary main_cst_55 (constant S_ .f32 0x3F800000#32),
    unary main_cst_55 main_v299 (broadcastInDim S50000 ![] bcast_S_S50000 : C S_ .f32 → C S50000 .f32),
    nullary main_cst_56 (constant S_ .f32 0x00000000#32),
    unary main_cst_56 main_v300 (broadcastInDim S512 ![] bcast_S_S512 : C S_ .f32 → C S512 .f32) ]

abbrev chunk10 : List (HloOp τ sig (Elt F)) :=
  [ unary main_arg2 main_v301 (broadcastInDim S50000x1 ![0] bcast_S50000_S50000x1_0 : C S50000 .i32 → C S50000x1 .i32),
    ternary main_v300 main_v301 main_v299 main_v302 ((fun x i u => Host.scatterAdd scatter_S512_S50000x1_S50000_n_0_0_1 x i u) : C S512 .f32 → C S50000x1 .i32 → C S50000 .f32 → C S512 .f32),
    nullary main_cst_57 (constant S_ .f32 0x3F800000#32),
    unary main_cst_57 main_v303 (broadcastInDim S512 ![] bcast_S_S512 : C S_ .f32 → C S512 .f32),
    binary main_v302 main_v303 main_v304 (maximumf : C S512 .f32 → C S512 .f32 → C S512 .f32),
    unary main_v304 main_v305 (broadcastInDim S512x1 ![0] bcast_S512_S512x1_0 : C S512 .f32 → C S512x1 .f32),
    unary main_v305 main_v306 (broadcastInDim S512x128 ![0, 1] bcast_S512x1_S512x128_0_1 : C S512x1 .f32 → C S512x128 .f32),
    binary main_v298 main_v306 main_v307 (Host.divf : C S512x128 .f32 → C S512x128 .f32 → C S512x128 .f32),
    binary main_v307 main_arg11 main_v308 ((fun l r => Host.dotGeneral dot_S512x128_S128x10_S512x10_1_0_0_1_n_n none l r) : C S512x128 .f32 → C S128x10 .f32 → C S512x10 .f32),
    unary main_arg12 main_v309 (broadcastInDim S1x10 ![1] bcast_S10_S1x10_1 : C S10 .f32 → C S1x10 .f32),
    unary main_v309 main_v310 (broadcastInDim S512x10 ![0, 1] bcast_S1x10_S512x10_0_1 : C S1x10 .f32 → C S512x10 .f32),
    binary main_v308 main_v310 main_v311 (addf : C S512x10 .f32 → C S512x10 .f32 → C S512x10 .f32) ]

/-- @main's operations in order, grouped by its seven windows. -/
abbrev ops : List (HloOp τ sig (Elt F)) :=
  chunk0 ++ ((chunk1 ++ chunk2) ++ ((chunk3 ++ chunk4) ++ (chunk5 ++ ((chunk6 ++ chunk7) ++ ((chunk8 ++ chunk9) ++ chunk10)))))

/-- The four layers, each up to and including its call of @relu, and the tail (the pooling and the final linear map). -/
abbrev opsL1 : List (HloOp τ sig (Elt F)) := chunk0 ++ (chunk1)
abbrev opsL2 : List (HloOp τ sig (Elt F)) := chunk2 ++ (chunk3)
abbrev opsL3 : List (HloOp τ sig (Elt F)) := chunk4 ++ (chunk5 ++ (chunk6))
abbrev opsL4 : List (HloOp τ sig (Elt F)) := chunk7 ++ (chunk8)
abbrev opsT : List (HloOp τ sig (Elt F)) := chunk9 ++ (chunk10)

theorem ops_layers : (ops : List (HloOp τ sig (Elt F))) = opsL1 ++ (opsL2 ++ (opsL3 ++ (opsL4 ++ (opsT)))) := by
  simp only [ops, opsL1, opsL2, opsL3, opsL4, opsT, List.append_assoc]

theorem after_ops_layers (V : Valuation τ sig (Elt F)) :
    after ops V = after opsT (after opsL4 (after opsL3 (after opsL2 (after opsL1 V)))) := by
  rw [ops_layers]; simp only [after_append]

end Cert.ReferenceIdeal.RefRun

end
-- ==== Proof.RRun.lean ====
import proofs.«401582_j39573828665766_2_alg».proof.Proof.ROps

noncomputable section

namespace Cert.ReferenceIdeal.RefRun

open Cert.ReferenceIdeal Cert.ReferenceIdeal.Gen Idealize.ShloMosaic Idealize.ShloMosaic.TcCoe Idealize.SL.Sem Idealize.ShloMosaic.StableHlo

section
variable {T : Topo} {σ : RefSig} {Val : EltTy → Type} {A : List (Ref σ .tc)}

/-- An operation made by one of the builders, its result outside `A`. -/
inductive Built (A : List (Ref σ .tc)) : HloOp T σ Val → Prop
  | nullary {y v hy} : y ∉ A → Built A (nullary y v hy)
  | unary {x y f hx hy} : y ∉ A → Built A (unary x y f hx hy)
  | binary {a b y f ha hb hy} : y ∉ A → Built A (binary a b y f ha hb hy)
  | ternary {c a b y f hc ha hb hy} : y ∉ A → Built A (ternary c a b y f hc ha hb hy)
  | reshape {x y he hn hx hy} : y ∉ A → Built A (reshape x y he hn hx hy)

/-- What the run of a line and the fold over it need of such an operation. -/
theorem Built.spec {op : HloOp T σ Val} (h : Built A op) :
    op.bufs ⊆ tcRefs T σ ∧ op.fresh = ∅ ∧ ∀ r ∈ A, Proc.devRef .tc r ∉ op.writes := by
  cases h with | _ h =>
    exact ⟨by simp only [nullary_bufs_sub, unary_bufs_sub, binary_bufs_sub, ternary_bufs_sub, reshape_bufs_sub], rfl,
      fun r hr hw => h (Proc.devRef_injective _ (Finset.mem_singleton.1 hw) ▸ hr)⟩

/-- No operation of such a line writes a reference of `A`. -/
theorem after_of_built {ops : List (HloOp T σ Val)} (h : ops.Forall (Built A)) (V : Valuation T σ Val) {r : Ref σ .tc}
    (hr : r ∈ A) : after ops V (Proc.devRef .tc r) = V (Proc.devRef .tc r) :=
  after_of_forall_not_mem ops V fun op hop => (List.forall_iff_forall_mem.1 h op hop).spec.2.2 r hr

end

variable {F : FTy → Type} [FloatOps F]

theorem bind_seq {Λ : Labels} {p q : Prog (TpuEff nD τ sig (Elt F) Λ .tc) PUnit} {l₁ l₂ : List (HloOp τ sig (Elt F))}
    (hp : p = seq l₁) (hq : q = seq l₂) : (p >>= fun _ => q) = seq (l₁ ++ l₂) := by
  rw [hp, hq, seq_append]

set_option maxRecDepth 8192 in
/-- Each window of @main unfolds to the line of its operations, so @main is the line of all of them. -/
theorem main_eq (c : Dev nD) : main (F := F) c = seq ops :=
  bind_seq (rfl : main_part0 (F := F) c = seq chunk0) (bind_seq (rfl : main_part1 (F := F) c = seq (chunk1 ++ chunk2))
    (bind_seq (rfl : main_part2 (F := F) c = seq (chunk3 ++ chunk4)) (bind_seq (rfl : main_part3 (F := F) c = seq chunk5)
    (bind_seq (rfl : main_part4 (F := F) c = seq (chunk6 ++ chunk7)) (bind_seq (rfl : main_part5 (F := F) c = seq (chunk8 ++ chunk9))
    (rfl : main_part6 (F := F) c = seq chunk10))))))

/-- The program's arguments. -/
abbrev args : List (Ref sig .tc) :=
  [main_arg0, main_arg1, main_arg2, main_arg3, main_arg4, main_arg5, main_arg6, main_arg7, main_arg8, main_arg9, main_arg10,
    main_arg11, main_arg12]

/-- Operation by operation: the builder is read off and its result compared with the arguments. -/
theorem ops_built : (ops : List (HloOp τ sig (Elt F))).Forall (Built args) := by
  repeat' first | with_reducible constructor | refine ⟨?_, ?_⟩ | show Built _ _
  all_goals decide

/-- @main is a line of builders' operations that write no argument, so the run of a straight line applies. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v311) = after ops (launchContents m c) (Proc.devRef .tc main_v311)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      refine ⟨h c _, ?_⟩
      repeat' apply And.intro
      all_goals exact (h c _).trans (after_of_built ops_built _ (by decide)))
    (run_seq (by decide) (by decide) defs main (fun _ => ops) main_eq (fun _ => ops_built.imp fun _ h => h.spec.1) m ρ
      fun _ op hop => (List.forall_iff_forall_mem.1 ops_built op hop).spec.2.1)

end Cert.ReferenceIdeal.RefRun

end
-- ==== Proof.RWrites.lean ====
import proofs.«401582_j39573828665766_2_alg».proof.Proof.ROps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Membership in a list is membership in the finite set of its images. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

abbrev chunk0_W : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47, main_cst_8, main_v48]
theorem chunk0_writes : (chunk0 : List (HloOp τ sig (Elt F))).Forall fun op => op.writes ⊆ (chunk0_W.map (Proc.devRef (τ := τ) .tc)).toFinset := by
  repeat' first | refine ⟨?_, ?_⟩ | exact writes_sub_of_mem (by decide)

abbrev chunk1_W : List (Ref sig .tc) :=
  [main_cst_9, main_v49, main_v50, main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v52, main_v53, main_v54, main_v55, main_v56, main_v57, main_cst_11, main_v58, main_v59, main_v60, main_v61, main_v62, main_v63, main_v64, main_v65, main_v66, main_call1.cst.ref, main_call1.v0.ref, main_call1.v1.ref]
theorem chunk1_writes : (chunk1 : List (HloOp τ sig (Elt F))).Forall fun op => op.writes ⊆ (chunk1_W.map (Proc.devRef (τ := τ) .tc)).toFinset := by
  repeat' first | refine ⟨?_, ?_⟩ | exact writes_sub_of_mem (by decide)

abbrev chunk2_W : List (Ref sig .tc) :=
  [main_v68, main_v69, main_v70, main_v71, main_v72, main_v73, main_v74, main_v75, main_cst_12, main_v76, main_cst_13, main_v77, main_v78, main_v79, main_cst_14, main_v80, main_v81, main_v82, main_v83, main_c_15, main_v84, main_v85, main_c_16, main_v86, main_v87, main_v88, main_v89, main_v90, main_c_17, main_v91, main_v92, main_c_18, main_v93, main_v94, main_v95, main_v96, main_v97, main_v98]
theorem chunk2_writes : (chunk2 : List (HloOp τ sig (Elt F))).Forall fun op => op.writes ⊆ (chunk2_W.map (Proc.devRef (τ := τ) .tc)).toFinset := by
  repeat' first | refine ⟨?_, ?_⟩ | exact writes_sub_of_mem (by decide)

abbrev chunk3_W : List (Ref sig .tc) :=
  [main_c_19, main_v99, main_v100, main_c_20, main_v101, main_v102, main_v103, main_v104, main_v105, main_v106, main_v107, main_v108, main_cst_21, main_v109, main_v110, main_v111, main_v112, main_v113, main_v114, main_v115, main_v116, main_v117, main_v118, main_v119, main_v120, main_v121, main_v122, main_v123, main_cst_22, main_v124, main_cst_23, main_v125, main_v126, main_c_24, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v128, main_v129, main_v130, main_v131, main_v132, main_v133, main_cst_25, main_v134, main_v135, main_v136, main_v137, main_v138, main_v139, main_v140, main_v141, main_v142, main_call3.cst.ref, main_call3.v0.ref, main_call3.v1.ref]
theorem chunk3_writes : (chunk3 : List (HloOp τ sig (Elt F))).Forall fun op => op.writes ⊆ (chunk3_W.map (Proc.devRef (τ := τ) .tc)).toFinset := by
  repeat' first | refine ⟨?_, ?_⟩ | exact writes_sub_of_mem (by decide)

abbrev chunk4_W : List (Ref sig .tc) :=
  [main_v144, main_v145, main_v146, main_v147, main_v148, main_v149, main_v150, main_v151]
theorem chunk4_writes : (chunk4 : List (HloOp τ sig (Elt F))).Forall fun op => op.writes ⊆ (chunk4_W.map (Proc.devRef (τ := τ) .tc)).toFinset := by
  repeat' first | refine ⟨?_, ?_⟩ | exact writes_sub_of_mem (by decide)

abbrev chunk5_W : List (Ref sig .tc) :=
  [main_cst_26, main_v152, main_cst_27, main_v153, main_v154, main_v155, main_cst_28, main_v156, main_v157, main_v158, main_v159, main_c_29, main_v160, main_v161, main_c_30, main_v162, main_v163, main_v164, main_v165, main_v166, main_c_31, main_v167, main_v168, main_c_32, main_v169, main_v170, main_v171, main_v172, main_v173, main_v174, main_c_33, main_v175, main_v176, main_c_34, main_v177, main_v178, main_v179, main_v180, main_v181, main_v182, main_v183, main_v184, main_cst_35, main_v185, main_v186, main_v187, main_v188, main_v189, main_v190, main_v191, main_v192, main_v193, main_v194, main_v195, main_v196, main_v197, main_v198, main_v199, main_cst_36, main_v200]
theorem chunk5_writes : (chunk5 : List (HloOp τ sig (Elt F))).Forall fun op => op.writes ⊆ (chunk5_W.map (Proc.devRef (τ := τ) .tc)).toFinset := by
  repeat' first | refine ⟨?_, ?_⟩ | exact writes_sub_of_mem (by decide)

abbrev chunk6_W : List (Ref sig .tc) :=
  [main_cst_37, main_v201, main_v202, main_c_38, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v204, main_v205, main_v206, main_v207, main_v208, main_v209, main_cst_39, main_v210, main_v211, main_v212, main_v213, main_v214, main_v215, main_v216, main_v217, main_v218, main_call5.cst.ref, main_call5.v0.ref, main_call5.v1.ref]
theorem chunk6_writes : (chunk6 : List (HloOp τ sig (Elt F))).Forall fun op => op.writes ⊆ (chunk6_W.map (Proc.devRef (τ := τ) .tc)).toFinset := by
  repeat' first | refine ⟨?_, ?_⟩ | exact writes_sub_of_mem (by decide)

abbrev chunk7_W : List (Ref sig .tc) :=
  [main_v220, main_v221, main_v222, main_v223, main_v224, main_v225, main_v226, main_v227, main_cst_40, main_v228, main_cst_41, main_v229, main_v230, main_v231, main_cst_42, main_v232, main_v233, main_v234, main_v235, main_c_43, main_v236, main_v237, main_c_44, main_v238, main_v239, main_v240, main_v241, main_v242, main_c_45, main_v243, main_v244, main_c_46, main_v245, main_v246, main_v247, main_v248, main_v249, main_v250]
theorem chunk7_writes : (chunk7 : List (HloOp τ sig (Elt F))).Forall fun op => op.writes ⊆ (chunk7_W.map (Proc.devRef (τ := τ) .tc)).toFinset := by
  repeat' first | refine ⟨?_, ?_⟩ | exact writes_sub_of_mem (by decide)

abbrev chunk8_W : List (Ref sig .tc) :=
  [main_c_47, main_v251, main_v252, main_c_48, main_v253, main_v254, main_v255, main_v256, main_v257, main_v258, main_v259, main_v260, main_cst_49, main_v261, main_v262, main_v263, main_v264, main_v265, main_v266, main_v267, main_v268, main_v269, main_v270, main_v271, main_v272, main_v273, main_v274, main_v275, main_cst_50, main_v276, main_cst_51, main_v277, main_v278, main_c_52, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v280, main_v281, main_v282, main_v283, main_v284, main_v285, main_cst_53, main_v286, main_v287, main_v288, main_v289, main_v290, main_v291, main_v292, main_v293, main_v294, main_call7.cst.ref, main_call7.v0.ref, main_call7.v1.ref]
theorem chunk8_writes : (chunk8 : List (HloOp τ sig (Elt F))).Forall fun op => op.writes ⊆ (chunk8_W.map (Proc.devRef (τ := τ) .tc)).toFinset := by
  repeat' first | refine ⟨?_, ?_⟩ | exact writes_sub_of_mem (by decide)

abbrev chunk9_W : List (Ref sig .tc) :=
  [main_cst_54, main_v296, main_v297, main_v298, main_cst_55, main_v299, main_cst_56, main_v300]
theorem chunk9_writes : (chunk9 : List (HloOp τ sig (Elt F))).Forall fun op => op.writes ⊆ (chunk9_W.map (Proc.devRef (τ := τ) .tc)).toFinset := by
  repeat' first | refine ⟨?_, ?_⟩ | exact writes_sub_of_mem (by decide)

abbrev chunk10_W : List (Ref sig .tc) :=
  [main_v301, main_v302, main_cst_57, main_v303, main_v304, main_v305, main_v306, main_v307, main_v308, main_v309, main_v310, main_v311]
theorem chunk10_writes : (chunk10 : List (HloOp τ sig (Elt F))).Forall fun op => op.writes ⊆ (chunk10_W.map (Proc.devRef (τ := τ) .tc)).toFinset := by
  repeat' first | refine ⟨?_, ?_⟩ | exact writes_sub_of_mem (by decide)

theorem after_ops_chunks (V : Valuation τ sig (Elt F)) :
    after ops V = after chunk10 (after chunk9 (after chunk8 (after chunk7 (after chunk6 (after chunk5 (after chunk4 (after chunk3 (after chunk2 (after chunk1 (after chunk0 V)))))))))) := by
  simp only [ops, after_append]

end Cert.ReferenceIdeal.RefRun

end
-- ==== Proof.RCtx.lean ====
import proofs.«401582_j39573828665766_2_alg».proof.ReferenceIdeal
import proofs.«401582_j39573828665766_2_alg».proof.Proof.Spec
import Idealize.ShloMosaic.PureOps.Ideal

noncomputable section

namespace Cert.ReferenceIdeal.RCtx

open Idealize.ShloMosaic
open Cert.ReferenceIdeal Cert.ReferenceIdeal.Facts₀

variable [Cert.ReferenceIdeal.Facts]

def src (e : IVec S2x800000 32) : IVec S800000 32 :=
  shapeCast S800000 (extractStridedSlice S1x800000 ![0, 0] e slices_S2x800000_S1x800000_0_0) shapeCasts_S1x800000_S800000

def dst (e : IVec S2x800000 32) : IVec S800000 32 :=
  shapeCast S800000 (extractStridedSlice S1x800000 ![1, 0] e slices_S2x800000_S1x800000_1_0) shapeCasts_S1x800000_S800000

def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def dinvOf (d : IVec S800000 32) : FVec Ideal S50000 .f32 :=
  Host.rsqrt
    (addf
      (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

def dinv (e : IVec S2x800000 32) : FVec Ideal S50000 .f32 := dinvOf (dst e)

def normOf (s d : IVec S800000 32) (dv : FVec Ideal S50000 .f32) : FVec Ideal S800000 .f32 :=
  mulf (Host.gather gather_S50000_S800000x1_S800000_n_0_n_n_0_1_1 dv (wrapCol s))
    (Host.gather gather_S50000_S800000x1_S800000_n_0_n_n_0_1_1 dv (wrapCol d))

def norm (e : IVec S2x800000 32) : FVec Ideal S800000 .f32 := normOf (src e) (dst e) (dinv e)

def aggOf (s d : IVec S800000 32) (nrm : FVec Ideal S800000 .f32) (h : FVec Ideal S50000x128 .f32) :
    FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf (Host.gather gather_S50000x128_S800000x1_S800000x128_1_0_n_n_0_1_1128 h (wrapCol s))
      (broadcastInDim S800000x128 ![0, 1] bcast_S800000x1_S800000x128_0_1
        (broadcastInDim S800000x1 ![0] bcast_S800000_S800000x1_0 nrm)))

def agg (e : IVec S2x800000 32) (h : FVec Ideal S50000x128 .f32) : FVec Ideal S50000x128 .f32 :=
  aggOf (src e) (dst e) (norm e) h

def ctx (e : IVec S2x800000 32) : Cert.Spec.Ctx := ⟨dinv e, agg e⟩

def poolOf (batch : IVec S50000 32) (A : FVec Ideal S50000x128 .f32) : FVec Ideal S512x128 .f32 :=
  Host.scatterAdd scatter_S512x128_S50000x1_S50000x128_1_0_0_1
    (broadcastInDim S512x128 ![] bcast_S_S512x128 (constant S_ .f32 0x00000000#32))
    (broadcastInDim S50000x1 ![0] bcast_S50000_S50000x1_0 batch) A

def countOf (batch : IVec S50000 32) : FVec Ideal S512 .f32 :=
  maximumf
    (Host.scatterAdd scatter_S512_S50000x1_S50000_n_0_0_1
      (broadcastInDim S512 ![] bcast_S_S512 (constant S_ .f32 0x00000000#32))
      (broadcastInDim S50000x1 ![0] bcast_S50000_S50000x1_0 batch)
      (broadcastInDim S50000 ![] bcast_S_S50000 (constant S_ .f32 0x3F800000#32)))
    (broadcastInDim S512 ![] bcast_S_S512 (constant S_ .f32 0x3F800000#32))

def tail (batch : IVec S50000 32) (Wl : FVec Ideal S128x10 .f32) (bl : FVec Ideal S10 .f32)
    (sums : FVec Ideal S512x128 .f32) : FVec Ideal S512x10 .f32 :=
  addf
    (Host.dotGeneral dot_S512x128_S128x10_S512x10_1_0_0_1_n_n none
      (Host.divf sums
        (broadcastInDim S512x128 ![0, 1] bcast_S512x1_S512x128_0_1
          (broadcastInDim S512x1 ![0] bcast_S512_S512x1_0 (countOf batch))))
      Wl)
    (broadcastInDim S512x10 ![0, 1] bcast_S1x10_S512x10_0_1 (broadcastInDim S1x10 ![1] bcast_S10_S1x10_1 bl))

end Cert.ReferenceIdeal.RCtx

end
-- ==== Proof.Alg.lean ====
import Mathlib.Data.EReal.Basic
import Mathlib.Data.EReal.Operations
import Mathlib.Data.EReal.Inv
import Mathlib.Algebra.BigOperators.Ring.Finset
import Mathlib.Algebra.Order.BigOperators.Ring.Finset
import Mathlib.Tactic.Ring
import Mathlib.Tactic.NormNum
import Mathlib.Tactic.Positivity
import Idealize.ShloMosaic.PureOps.Ideal
import Idealize.ShloMosaic.Lib.ValueIdx
import proofs.«401582_j39573828665766_2_alg».proof.Proof.Spec

noncomputable section
namespace Cert.Spec
open Idealize.ShloMosaic Idealize.ShloMosaic.ValueIdx

theorem cN_eq : cN = ((50000 : ℝ) : EReal) := by
  unfold cN
  simp [Ideal.ofBits, Ideal.ieee, -EReal.coe_mul]; norm_num

theorem eps_pos : ∃ e : ℝ, 0 < e ∧ eps = (e : EReal) := by
  unfold eps
  simp [Ideal.ofBits, Ideal.ieee, -EReal.coe_mul]

theorem act_eq_actR (P : SND.Idx → EReal) (g be mu var : SD.Idx → EReal) :
    act P g be mu var = actR P g be mu var := by
  funext i
  simp only [act, actR, mul_assoc]

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_var (p : Fin 50000 → ℝ) :
    (∑ n, p n * p n) * (1 / 50000) - ((∑ n, p n) * (1 / 50000)) * ((∑ n, p n) * (1 / 50000))
      = (∑ n, (p n - (∑ n, p n) * (1 / 50000)) * (p n - (∑ n, p n) * (1 / 50000))) * (1 / 50000) := by
  generalize hm : (∑ n, p n) * (1 / 50000 : ℝ) = m
  have hs : (∑ n, p n) = 50000 * m := by rw [← hm]; ring
  have h : ∑ n, (p n - m) * (p n - m) = (∑ n, p n * p n) - 2 * m * (∑ n, p n) + 50000 * (m * m) := by
    simp_rw [show ∀ n, (p n - m) * (p n - m) = p n * p n - 2 * m * p n + m * m from fun n => by ring]
    rw [Finset.sum_add_distrib, Finset.sum_sub_distrib, ← Finset.mul_sum, Finset.sum_const,
      Finset.card_univ, Fintype.card_fin, nsmul_eq_mul]
    norm_num
  rw [h, hs]; ring

theorem muV_coe (P : SND.Idx → EReal) (r : SND.Idx → ℝ) (hr : ∀ i, P i = (r i : EReal)) (j : SD.Idx) :
    muV P j = (((∑ n : Fin 50000, r (ix2 n (j 0))) * (1 / 50000) : ℝ) : EReal) := by
  simp only [muV, hr, cN_eq, Ideal.div_coe (by norm_num : (50000 : ℝ) ≠ 0), ← coe_sum, ← EReal.coe_mul]

theorem muV_real (P : SND.Idx → EReal) (hP : IsRealV P) : IsRealV (muV P) := by
  choose r hr using hP
  intro j
  exact ⟨_, muV_coe P r hr j⟩

theorem varR_coe (P : SND.Idx → EReal) (r : SND.Idx → ℝ) (hr : ∀ i, P i = (r i : EReal)) (j : SD.Idx) :
    varR P j = (((∑ n : Fin 50000, (r (ix2 n (j 0)) - (∑ n : Fin 50000, r (ix2 n (j 0))) * (1 / 50000))
        * (r (ix2 n (j 0)) - (∑ n : Fin 50000, r (ix2 n (j 0))) * (1 / 50000))) * (1 / 50000) : ℝ) : EReal) := by
  simp only [varR, muV_coe P r hr, hr, cN_eq, Ideal.div_coe (by norm_num : (50000 : ℝ) ≠ 0),
    ← EReal.coe_sub, ← EReal.coe_mul, ← coe_sum]

theorem varK_coe (P : SND.Idx → EReal) (r : SND.Idx → ℝ) (hr : ∀ i, P i = (r i : EReal)) (j : SD.Idx) :
    varK P j = (((∑ n : Fin 50000, r (ix2 n (j 0)) * r (ix2 n (j 0))) * (1 / 50000)
        - ((∑ n : Fin 50000, r (ix2 n (j 0))) * (1 / 50000)) * ((∑ n : Fin 50000, r (ix2 n (j 0))) * (1 / 50000)) : ℝ) : EReal) := by
  simp only [varK, muV_coe P r hr, hr, cN_eq, Ideal.div_coe (by norm_num : (50000 : ℝ) ≠ 0),
    ← EReal.coe_sub, ← EReal.coe_mul, ← coe_sum]

theorem varR_real_nonneg (P : SND.Idx → EReal) (hP : IsRealV P) :
    ∀ j, ∃ v : ℝ, 0 ≤ v ∧ varR P j = (v : EReal) := by
  choose r hr using hP
  intro j
  refine ⟨_, ?_, varR_coe P r hr j⟩
  exact mul_nonneg (Finset.sum_nonneg fun n _ => mul_self_nonneg _) (by norm_num)

theorem varK_eq_varR (P : SND.Idx → EReal) (hP : IsRealV P) : varK P = varR P := by
  choose r hr using hP
  funext j
  rw [varK_coe P r hr, varR_coe P r hr, real_var]

theorem bnK_eq_bnR (P : SND.Idx → EReal) (hP : IsRealV P) (g be : SD.Idx → EReal) :
    bnK P g be = bnR P g be := by
  rw [bnK, bnR, varK_eq_varR P hP, act_eq_actR]

end Cert.Spec
end
-- ==== Proof.RPat.lean ====
import proofs.«401582_j39573828665766_2_alg».proof.ReferenceIdeal
import proofs.«401582_j39573828665766_2_alg».proof.Proof.Spec
import proofs.«401582_j39573828665766_2_alg».proof.Proof.Alg
import proofs.«401582_j39573828665766_2_alg».proof.Proof.RCtx
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

namespace Cert.ReferenceIdeal.RPat

open Idealize.ShloMosaic Idealize.ShloMosaic.ValueIdx
open Cert.ReferenceIdeal Cert.ReferenceIdeal.Facts₀ Cert.ReferenceIdeal.Facts

variable [Cert.ReferenceIdeal.Facts]

local notation "Z0" => constant (F := Ideal) S_ FTy.f32 0x00000000#32
local notation "CN" => constant (F := Ideal) S_ FTy.f32 0x47435000#32
local notation "rowB⟪" v "⟫" =>
  broadcastInDim S50000x128 ![0, 1] bcast_S1x128_S50000x128_0_1 (broadcastInDim S1x128 ![1] bcast_S128_S1x128_1 v)
local notation "meanT⟪" P "⟫" =>
  Host.divf (Host.reduceAdd P Z0 reducesTo_S50000x128_S128_d0 h_S_) (broadcastInDim S128 ![] bcast_S_S128 CN)
local notation "devT⟪" P "⟫" =>
  subf P (broadcastInDim S50000x128 ![0, 1] bcast_S1x128_S50000x128_0_1
    (Host.divf (broadcastInDim S1x128 ![1] bcast_S128_S1x128_1 (Host.reduceAdd P Z0 reducesTo_S50000x128_S128_d0 h_S_))
      (broadcastInDim S1x128 ![] bcast_S_S1x128 CN)))
local notation "cntT" => subf CN (sitofp FTy.f32 (constantI S_ 32 0#32))
local notation "varT⟪" P "⟫" =>
  select (broadcastInDim S128 ![] bcast_S_S128 (cmpf CmpFPredicate.ogt cntT Z0))
    (Host.divf (Host.reduceAdd (mulf devT⟪P⟫ devT⟪P⟫) Z0 reducesTo_S50000x128_S128_d0 h_S_)
      (broadcastInDim S128 ![] bcast_S_S128 cntT))
    (broadcastInDim S128 ![] bcast_S_S128 (id (constant (F := Ideal) S_ FTy.f32 0x7FC00000#32)))
local notation "actT⟪" P ", " g ", " be ", " mu ", " var "⟫" =>
  maximumf
    (addf (mulf (mulf rowB⟪g⟫ (subf P rowB⟪mu⟫))
        rowB⟪Host.rsqrt (addf var (broadcastInDim S128 ![] bcast_S_S128 (constant (F := Ideal) S_ FTy.f32 0x3727C5AC#32)))⟫)
      rowB⟪be⟫)
    (broadcastInDim S50000x128 ![] bcast_S_S50000x128 Z0)

section Spread
variable {α : Type}

theorem bcast_row_apply (v : S128.Idx → α) (u : Fin 1) (q : Fin 128) :
    broadcastInDim S1x128 ![1] bcast_S128_S1x128_1 v (ix2 u q) = v (ix1 q) :=
  broadcastInDim_apply _ _ v _ _ fun a => match a with | ⟨0, _⟩ => rfl

theorem bcast_rows_apply (r : S1x128.Idx → α) (p : Fin 50000) (q : Fin 128) :
    broadcastInDim S50000x128 ![0, 1] bcast_S1x128_S50000x128_0_1 r (ix2 p q) = r (ix2 (0 : Fin 1) q) :=
  broadcastInDim_apply _ _ r _ _ fun a => match a with | ⟨0, _⟩ => rfl | ⟨1, _⟩ => rfl

theorem rowB_apply (v : S128.Idx → α) (p : Fin 50000) (q : Fin 128) : rowB⟪v⟫ (ix2 p q) = v (ix1 q) := by
  rw [bcast_rows_apply, bcast_row_apply]

theorem bcast_col_apply (v : S50000.Idx → α) (p : Fin 50000) (u : Fin 1) :
    broadcastInDim S50000x1 ![0] bcast_S50000_S50000x1_0 v (ix2 p u) = v (ix1 p) :=
  broadcastInDim_apply _ _ v _ _ fun a => match a with | ⟨0, _⟩ => rfl

theorem bcast_cols_apply (c : S50000x1.Idx → α) (p : Fin 50000) (q : Fin 128) :
    broadcastInDim S50000x128 ![0, 1] bcast_S50000x1_S50000x128_0_1 c (ix2 p q) = c (ix2 p (0 : Fin 1)) :=
  broadcastInDim_apply _ _ c _ _ fun a => match a with | ⟨0, _⟩ => rfl | ⟨1, _⟩ => rfl

end Spread

theorem dot_eq_mm (X : FVec Ideal S50000x128 .f32) (W : FVec Ideal S128x128 .f32) :
    Host.dotGeneral dot_S50000x128_S128x128_S50000x128_1_0_0_1_n_n none X W = Cert.Spec.mm X W := by
  funext i
  obtain ⟨a, b, rfl⟩ : ∃ (a : Fin 50000) (b : Fin 128), i = ix2 a b := ⟨i 0, i 1, eq_ix2 i⟩
  exact StackMember.dotGeneral_plain_apply none X W a b

theorem pre_eq (agg h : FVec Ideal S50000x128 .f32) (dinv : FVec Ideal S50000 .f32) (b : FVec Ideal S128 .f32) :
    addf (addf agg (mulf h (broadcastInDim S50000x128 ![0, 1] bcast_S50000x1_S50000x128_0_1
        (broadcastInDim S50000x1 ![0] bcast_S50000_S50000x1_0 (mulf dinv dinv))))) rowB⟪b⟫
      = Cert.Spec.pre agg h dinv b := by
  funext i
  obtain ⟨p, q, rfl⟩ : ∃ (p : Fin 50000) (q : Fin 128), i = ix2 p q := ⟨i 0, i 1, eq_ix2 i⟩
  simp only [addf_apply, mulf_apply]
  rw [rowB_apply, bcast_cols_apply, bcast_col_apply]
  rfl

theorem reduceAdd_apply (Q : FVec Ideal S50000x128 .f32) (q : Fin 128) :
    Host.reduceAdd Q Z0 reducesTo_S50000x128_S128_d0 h_S_ (ix1 q) = ∑ n : Fin 50000, Q (ix2 n q) := by
  have hR : S50000x128.Reduces [0] S128 := by decide
  show Ideal.hostReduceAdd reducesTo_S50000x128_S128_d0 Q (Ideal.ofBits .f32 0x00000000#32) (ix1 q) = _
  rw [Ideal.hostReduceAdd_single _ hR, Ideal.ofBits_zero_f32, zero_add]
  exact Finset.sum_congr rfl fun k _ => congrArg Q
    (funext fun a => match a with | ⟨0, _⟩ => Fin.ext rfl | ⟨1, _⟩ => Fin.ext rfl)

theorem CN_apply : CN ix0 = Cert.Spec.cN := rfl

theorem mean_eq (P : FVec Ideal S50000x128 .f32) : meanT⟪P⟫ = Cert.Spec.muV P := by
  funext j
  obtain ⟨q, rfl⟩ : ∃ q : Fin 128, j = ix1 q := ⟨j 0, eq_ix1 j⟩
  show Ideal.div (Host.reduceAdd P Z0 reducesTo_S50000x128_S128_d0 h_S_ (ix1 q))
      (broadcastInDim S128 ![] bcast_S_S128 CN (ix1 q)) = Ideal.div (∑ n : Fin 50000, P (ix2 n q)) Cert.Spec.cN
  rw [reduceAdd_apply, broadcastInDim_scalar_apply, CN_apply]

theorem cN_pos : (0 : EReal) < Cert.Spec.cN := by
  rw [Cert.Spec.cN_eq]; exact EReal.coe_pos.mpr (by norm_num)

theorem cnt_apply : cntT ix0 = Cert.Spec.cN := by
  show Ideal.ofBits .f32 0x47435000#32 - (((0#32 : BitVec 32).toInt : ℝ) : EReal) = Cert.Spec.cN
  simp [Cert.Spec.cN]

theorem dev_apply (P : FVec Ideal S50000x128 .f32) (n : Fin 50000) (q : Fin 128) :
    devT⟪P⟫ (ix2 n q) = P (ix2 n q) - Cert.Spec.muV P (ix1 q) := by
  rw [subf_apply, bcast_rows_apply]
  show P (ix2 n q) - Ideal.div
      (broadcastInDim S1x128 ![1] bcast_S128_S1x128_1 (Host.reduceAdd P Z0 reducesTo_S50000x128_S128_d0 h_S_) (ix2 (0 : Fin 1) q))
      (broadcastInDim S1x128 ![] bcast_S_S1x128 CN (ix2 (0 : Fin 1) q)) = _
  rw [bcast_row_apply, broadcastInDim_scalar_apply, reduceAdd_apply, CN_apply]
  rfl

theorem var_eq (P : FVec Ideal S50000x128 .f32) : varT⟪P⟫ = Cert.Spec.varR P := by
  funext j
  obtain ⟨q, rfl⟩ : ∃ q : Fin 128, j = ix1 q := ⟨j 0, eq_ix1 j⟩
  rw [select_apply, broadcastInDim_scalar_apply, cmpf_apply, cnt_apply]
  have hc : FloatOps.cmpf (F := Ideal) (φ := .f32) CmpFPredicate.ogt Cert.Spec.cN (Z0 ix0) = 1#1 := by
    show BitVec.ofBool (decide (Ideal.ofBits .f32 0x00000000#32 < Cert.Spec.cN)) = 1#1
    rw [Ideal.ofBits_zero_f32, decide_eq_true cN_pos]; rfl
  rw [hc, select_one]
  show Ideal.div (Host.reduceAdd (mulf devT⟪P⟫ devT⟪P⟫) Z0 reducesTo_S50000x128_S128_d0 h_S_ (ix1 q))
      (broadcastInDim S128 ![] bcast_S_S128 cntT (ix1 q)) = _
  rw [reduceAdd_apply, broadcastInDim_scalar_apply, cnt_apply]
  change _ = Ideal.div (∑ n : Fin 50000, (P (ix2 n q) - Cert.Spec.muV P (ix1 q)) * (P (ix2 n q) - Cert.Spec.muV P (ix1 q)))
    Cert.Spec.cN
  refine congrArg (Ideal.div · Cert.Spec.cN) (Finset.sum_congr rfl fun n _ => ?_)
  rw [mulf_apply, dev_apply]

theorem bnrelu_eq (P : FVec Ideal S50000x128 .f32) (g be mu var : FVec Ideal S128 .f32) :
    actT⟪P, g, be, mu, var⟫ = Cert.Spec.actR P g be mu var := by
  funext i
  obtain ⟨p, q, rfl⟩ : ∃ (p : Fin 50000) (q : Fin 128), i = ix2 p q := ⟨i 0, i 1, eq_ix2 i⟩
  simp only [maximumf_apply, addf_apply, mulf_apply, subf_apply]
  rw [rowB_apply, rowB_apply, rowB_apply, rowB_apply, broadcastInDim_scalar_apply]
  show max (g (ix1 q) * (P (ix2 p q) - mu (ix1 q)) * Ideal.rsqrt (var (ix1 q)
      + broadcastInDim S128 ![] bcast_S_S128 (constant (F := Ideal) S_ .f32 0x3727C5AC#32) (ix1 q)) + be (ix1 q))
      (Ideal.ofBits .f32 0x00000000#32) = _
  rw [broadcastInDim_scalar_apply, Ideal.ofBits_zero_f32]
  rfl

/-- The matrix product of a layer in the program's operations. -/
def dotT (X : FVec Ideal S50000x128 .f32) (Wm : FVec Ideal S128x128 .f32) : FVec Ideal S50000x128 .f32 :=
  Host.dotGeneral dot_S50000x128_S128x128_S50000x128_1_0_0_1_n_n none X Wm

/-- The pre-normalisation activation in the program's operations. -/
def preT (a h : FVec Ideal S50000x128 .f32) (dv : FVec Ideal S50000 .f32) (b : FVec Ideal S128 .f32) :
    FVec Ideal S50000x128 .f32 :=
  addf (addf a (mulf h (broadcastInDim S50000x128 ![0, 1] bcast_S50000x1_S50000x128_0_1
    (broadcastInDim S50000x1 ![0] bcast_S50000_S50000x1_0 (mulf dv dv))))) rowB⟪b⟫

/-- The column sums from zero. -/
def colsum (P : FVec Ideal S50000x128 .f32) : FVec Ideal S128 .f32 :=
  Host.reduceAdd P Z0 reducesTo_S50000x128_S128_d0 h_S_

/-- Mean from given column sums, two-pass variance, normalisation, scale, shift and rectifier. -/
def bnS (P : FVec Ideal S50000x128 .f32) (g be cs : FVec Ideal S128 .f32) : FVec Ideal S50000x128 .f32 :=
  actT⟪P, g, be, Host.divf cs (broadcastInDim S128 ![] bcast_S_S128 CN), varT⟪P⟫⟫

/-- A whole layer in the program's operations is the specification's two-pass layer. -/
theorem layer_eq (e : IVec S2x800000 32) (X : FVec Ideal S50000x128 .f32) (Wm : FVec Ideal S128x128 .f32)
    (b g be : FVec Ideal S128 .f32) :
    Cert.Spec.bnR (Cert.Spec.layer (RCtx.ctx e) X Wm b) g be
      = bnS (preT (RCtx.aggOf (RCtx.src e) (RCtx.dst e) (RCtx.norm e) (dotT X Wm)) (dotT X Wm) (RCtx.dinv e) b) g be
          (colsum (preT (RCtx.aggOf (RCtx.src e) (RCtx.dst e) (RCtx.norm e) (dotT X Wm)) (dotT X Wm) (RCtx.dinv e) b)) := by
  unfold bnS colsum preT dotT
  rw [bnrelu_eq, mean_eq, var_eq, pre_eq, dot_eq_mm]
  rfl

/-- Matrix `k` of a stack of three in the program's operations. -/
def wsl (k : Fin 3) (Wc : FVec Ideal S3x128x128 .f32) (hs : S3x128x128.Slices ![k.val, 0, 0] S1x128x128) :
    FVec Ideal S128x128 .f32 :=
  shapeCast S128x128 (extractStridedSlice S1x128x128 ![k.val, 0, 0] Wc hs) shapeCasts_S1x128x128_S128x128

/-- Row `k` of a stack of three vectors in the program's operations. -/
def vsl (k : Fin 3) (bc : FVec Ideal S3x128 .f32) (hs : S3x128.Slices ![k.val, 0] S1x128) : FVec Ideal S128 .f32 :=
  shapeCast S128 (extractStridedSlice S1x128 ![k.val, 0] bc hs) shapeCasts_S1x128_S128

theorem wsl_eq (k : Fin 3) (Wc : FVec Ideal S3x128x128 .f32) (hs : S3x128x128.Slices ![k.val, 0, 0] S1x128x128) :
    wsl k Wc hs = Cert.Spec.sl3 Wc k := by
  funext i
  obtain ⟨a, b, rfl⟩ : ∃ (a : Fin 128) (b : Fin 128), i = ix2 a b := ⟨i 0, i 1, eq_ix2 i⟩
  rw [wsl, shapeCast_1ab_ab_apply]
  exact extractStridedSlice_apply _ Wc hs _ (ix3 k a b) fun ax => match ax with
    | ⟨0, _⟩ => rfl
    | ⟨1, _⟩ => (Nat.zero_add _).symm
    | ⟨2, _⟩ => (Nat.zero_add _).symm

theorem vsl_eq (k : Fin 3) (bc : FVec Ideal S3x128 .f32) (hs : S3x128.Slices ![k.val, 0] S1x128) :
    vsl k bc hs = Cert.Spec.sl2 bc k := by
  funext j
  obtain ⟨q, rfl⟩ : ∃ q : Fin 128, j = ix1 q := ⟨j 0, eq_ix1 j⟩
  rw [vsl, shapeCast_1a_a_apply]
  exact extractStridedSlice_apply _ bc hs _ (ix2 k q) fun ax => match ax with
    | ⟨0, _⟩ => rfl
    | ⟨1, _⟩ => (Nat.zero_add _).symm

end Cert.ReferenceIdeal.RPat

end
-- ==== Proof.RVal.lean ====
import proofs.«401582_j39573828665766_2_alg».proof.Proof.ROps
import proofs.«401582_j39573828665766_2_alg».proof.Proof.RWrites
import proofs.«401582_j39573828665766_2_alg».proof.Proof.RCtx
import proofs.«401582_j39573828665766_2_alg».proof.Proof.RPat
import proofs.«401582_j39573828665766_2_alg».proof.Proof.Spec

set_option synthInstance.maxSize 4096

noncomputable section

namespace Cert.ReferenceIdeal.RVal

open Cert.ReferenceIdeal Cert.ReferenceIdeal.Facts₀ Cert.ReferenceIdeal.Facts Cert.ReferenceIdeal.RefRun Cert.ReferenceIdeal.RPat
  Idealize.ShloMosaic Idealize.ShloMosaic.TcCoe Idealize.SL.Sem Idealize.ShloMosaic.StableHlo

set_option quotPrecheck false in
local notation "rf" => (Proc.devRef (τ := τ) .tc : Ref sig .tc → DevRef τ sig)

/-- Running a list is running its first `n` operations and then the rest. -/
theorem after_split (n : ℕ) (l : List (HloOp τ sig (Elt Ideal))) (V : Valuation τ sig (Elt Ideal)) :
    after l V = after (l.drop n) (after (l.take n) V) := by
  rw [← StableHlo.after_append, List.take_append_drop]

variable (V W : Valuation τ sig (Elt Ideal))

/-- Layer 1, first stretch: the edges' ends, the inverse square-root degree, the edge weights and the matrix product. -/
theorem ctx1 (hW : W = after (List.take 34 chunk0) V) :
    W (rf main_v1) = RCtx.src (V (rf main_arg1)) ∧ W (rf main_v3) = RCtx.dst (V (rf main_arg1))
      ∧ W (rf main_v10) = RCtx.dinv (V (rf main_arg1)) ∧ W (rf main_v26) = RCtx.norm (V (rf main_arg1))
      ∧ W (rf main_v11) = dotT (V (rf main_arg0)) (V (rf main_arg3))
      ∧ W (rf main_arg4) = V (rf main_arg4) ∧ W (rf main_arg5) = V (rf main_arg5) ∧ W (rf main_arg6) = V (rf main_arg6) := by
  subst hW
  simp only [List.take_succ_cons, List.take_zero]
  after_results_simp
  exact ⟨rfl, rfl, rfl, rfl, rfl, trivial, trivial, trivial⟩

/-- Second stretch: the pre-normalisation activation and its column sums. -/
theorem pre1 (hW : W = after (List.drop 34 chunk0) V) :
    W (rf main_v47) = preT (RCtx.aggOf (V (rf main_v1)) (V (rf main_v3)) (V (rf main_v26)) (V (rf main_v11)))
        (V (rf main_v11)) (V (rf main_v10)) (V (rf main_arg4))
      ∧ W (rf main_v48) = colsum (W (rf main_v47))
      ∧ W (rf main_arg5) = V (rf main_arg5) ∧ W (rf main_arg6) = V (rf main_arg6) := by
  subst hW
  simp only [List.drop_succ_cons, List.drop_zero]
  after_results_simp
  exact ⟨rfl, rfl, trivial, trivial⟩

/-- Third stretch: the batch statistics, the normalisation and the rectifier. -/
theorem bn1 :
    after chunk1 V (rf main_v67) = bnS (V (rf main_v47)) (V (rf main_arg5)) (V (rf main_arg6)) (V (rf main_v48)) := by
  after_results_simp
  rfl

theorem layer1 :
    after chunk1 (after chunk0 V) (rf main_v67)
      = Cert.Spec.bnR (Cert.Spec.layer (RCtx.ctx (V (rf main_arg1))) (V (rf main_arg0)) (V (rf main_arg3)) (V (rf main_arg4)))
          (V (rf main_arg5)) (V (rf main_arg6)) := by
  obtain ⟨h1, h2, h3, h4, h5, h6, h7, h8⟩ := ctx1 V _ rfl
  obtain ⟨k1, k2, k3, k4⟩ := pre1 (after (List.take 34 chunk0) V) _ rfl
  rw [after_split 34 chunk0, bn1, k2, k1, k3, k4, h1, h2, h3, h4, h5, h6, h7, h8, layer_eq]

/-- Layer 2, first stretch: the edges' ends, the inverse square-root degree, the edge weights, the matrix product and the bias. -/
theorem ctx2 (hW : W = after chunk2 V) :
    W (rf main_v73) = RCtx.src (V (rf main_arg1)) ∧ W (rf main_v75) = RCtx.dst (V (rf main_arg1))
      ∧ W (rf main_v82) = RCtx.dinv (V (rf main_arg1)) ∧ W (rf main_v98) = RCtx.norm (V (rf main_arg1))
      ∧ W (rf main_v83) = dotT (V (rf main_v67)) (wsl 0 (V (rf main_arg7)) slices_S3x128x128_S1x128x128_0_0_0)
      ∧ W (rf main_v71) = vsl 0 (V (rf main_arg8)) slices_S3x128_S1x128_0_0
      ∧ W (rf main_arg9) = V (rf main_arg9) ∧ W (rf main_arg10) = V (rf main_arg10) := by
  subst hW
  after_results_simp
  exact ⟨rfl, rfl, rfl, rfl, rfl, rfl, trivial, trivial⟩

/-- Second stretch: the pre-normalisation activation, its column sums, the scale and the shift. -/
theorem pre2 (hW : W = after (List.take 30 chunk3) V) :
    W (rf main_v119) = preT (RCtx.aggOf (V (rf main_v73)) (V (rf main_v75)) (V (rf main_v98)) (V (rf main_v83)))
        (V (rf main_v83)) (V (rf main_v82)) (V (rf main_v71))
      ∧ W (rf main_v121) = vsl 0 (V (rf main_arg9)) slices_S3x128_S1x128_0_0
      ∧ W (rf main_v123) = vsl 0 (V (rf main_arg10)) slices_S3x128_S1x128_0_0
      ∧ W (rf main_v124) = colsum (W (rf main_v119)) := by
  subst hW
  simp only [List.take_succ_cons, List.take_zero]
  after_results_simp
  exact ⟨rfl, rfl, rfl, rfl⟩

/-- Third stretch: the batch statistics, the normalisation and the rectifier. -/
theorem bn2 :
    after (List.drop 30 chunk3) V (rf main_v143)
      = bnS (V (rf main_v119)) (V (rf main_v121)) (V (rf main_v123)) (V (rf main_v124)) := by
  simp only [List.drop_succ_cons, List.drop_zero]
  after_results_simp
  rfl

theorem layer2 :
    after chunk3 (after chunk2 V) (rf main_v143)
      = Cert.Spec.bnR (Cert.Spec.layer (RCtx.ctx (V (rf main_arg1))) (V (rf main_v67))
          (Cert.Spec.sl3 (V (rf main_arg7)) 0) (Cert.Spec.sl2 (V (rf main_arg8)) 0))
          (Cert.Spec.sl2 (V (rf main_arg9)) 0) (Cert.Spec.sl2 (V (rf main_arg10)) 0) := by
  obtain ⟨h1, h2, h3, h4, h5, h6, h7, h8⟩ := ctx2 V _ rfl
  obtain ⟨k1, k2, k3, k4⟩ := pre2 (after chunk2 V) _ rfl
  rw [after_split 30 chunk3, bn2, k4, k1, k2, k3, h1, h2, h3, h4, h5, h6, h7, h8, layer_eq,
    ← wsl_eq 0 _ slices_S3x128x128_S1x128x128_0_0_0, ← vsl_eq 0 (V (rf main_arg8)) slices_S3x128_S1x128_0_0,
    ← vsl_eq 0 (V (rf main_arg9)) slices_S3x128_S1x128_0_0, ← vsl_eq 0 (V (rf main_arg10)) slices_S3x128_S1x128_0_0]

/-- Layer 3, first stretch: the edges' ends, the inverse square-root degree, the edge weights, the matrix product and the bias. -/
theorem ctx3 (hW : W = after (List.take 30 chunk5) (after chunk4 V)) :
    W (rf main_v149) = RCtx.src (V (rf main_arg1)) ∧ W (rf main_v151) = RCtx.dst (V (rf main_arg1))
      ∧ W (rf main_v158) = RCtx.dinv (V (rf main_arg1)) ∧ W (rf main_v174) = RCtx.norm (V (rf main_arg1))
      ∧ W (rf main_v159) = dotT (V (rf main_v143)) (wsl 1 (V (rf main_arg7)) slices_S3x128x128_S1x128x128_1_0_0)
      ∧ W (rf main_v147) = vsl 1 (V (rf main_arg8)) slices_S3x128_S1x128_1_0
      ∧ W (rf main_arg9) = V (rf main_arg9) ∧ W (rf main_arg10) = V (rf main_arg10) := by
  subst hW
  simp only [List.take_succ_cons, List.take_zero]
  after_results_simp
  exact ⟨rfl, rfl, rfl, rfl, rfl, rfl, trivial, trivial⟩

/-- Second stretch: the pre-normalisation activation, its column sums, the scale and the shift. -/
theorem pre3 (hW : W = after (List.drop 30 chunk5) V) :
    W (rf main_v195) = preT (RCtx.aggOf (V (rf main_v149)) (V (rf main_v151)) (V (rf main_v174)) (V (rf main_v159)))
        (V (rf main_v159)) (V (rf main_v158)) (V (rf main_v147))
      ∧ W (rf main_v197) = vsl 1 (V (rf main_arg9)) slices_S3x128_S1x128_1_0
      ∧ W (rf main_v199) = vsl 1 (V (rf main_arg10)) slices_S3x128_S1x128_1_0
      ∧ W (rf main_v200) = colsum (W (rf main_v195)) := by
  subst hW
  simp only [List.drop_succ_cons, List.drop_zero]
  after_results_simp
  exact ⟨rfl, rfl, rfl, rfl⟩

/-- Third stretch: the batch statistics, the normalisation and the rectifier. -/
theorem bn3 :
    after chunk6 V (rf main_v219)
      = bnS (V (rf main_v195)) (V (rf main_v197)) (V (rf main_v199)) (V (rf main_v200)) := by
  after_results_simp
  rfl

theorem layer3 :
    after chunk6 (after chunk5 (after chunk4 V)) (rf main_v219)
      = Cert.Spec.bnR (Cert.Spec.layer (RCtx.ctx (V (rf main_arg1))) (V (rf main_v143))
          (Cert.Spec.sl3 (V (rf main_arg7)) 1) (Cert.Spec.sl2 (V (rf main_arg8)) 1))
          (Cert.Spec.sl2 (V (rf main_arg9)) 1) (Cert.Spec.sl2 (V (rf main_arg10)) 1) := by
  obtain ⟨h1, h2, h3, h4, h5, h6, h7, h8⟩ := ctx3 V _ rfl
  obtain ⟨k1, k2, k3, k4⟩ := pre3 (after (List.take 30 chunk5) (after chunk4 V)) _ rfl
  rw [after_split 30 chunk5, bn3, k4, k1, k2, k3, h1, h2, h3, h4, h5, h6, h7, h8, layer_eq,
    ← wsl_eq 1 _ slices_S3x128x128_S1x128x128_1_0_0, ← vsl_eq 1 (V (rf main_arg8)) slices_S3x128_S1x128_1_0,
    ← vsl_eq 1 (V (rf main_arg9)) slices_S3x128_S1x128_1_0, ← vsl_eq 1 (V (rf main_arg10)) slices_S3x128_S1x128_1_0]

/-- Layer 4, first stretch: the edges' ends, the inverse square-root degree, the edge weights, the matrix product and the bias. -/
theorem ctx4 (hW : W = after chunk7 V) :
    W (rf main_v225) = RCtx.src (V (rf main_arg1)) ∧ W (rf main_v227) = RCtx.dst (V (rf main_arg1))
      ∧ W (rf main_v234) = RCtx.dinv (V (rf main_arg1)) ∧ W (rf main_v250) = RCtx.norm (V (rf main_arg1))
      ∧ W (rf main_v235) = dotT (V (rf main_v219)) (wsl 2 (V (rf main_arg7)) slices_S3x128x128_S1x128x128_2_0_0)
      ∧ W (rf main_v223) = vsl 2 (V (rf main_arg8)) slices_S3x128_S1x128_2_0
      ∧ W (rf main_arg9) = V (rf main_arg9) ∧ W (rf main_arg10) = V (rf main_arg10) := by
  subst hW
  after_results_simp
  exact ⟨rfl, rfl, rfl, rfl, rfl, rfl, trivial, trivial⟩

/-- Second stretch: the pre-normalisation activation, its column sums, the scale and the shift. -/
theorem pre4 (hW : W = after (List.take 30 chunk8) V) :
    W (rf main_v271) = preT (RCtx.aggOf (V (rf main_v225)) (V (rf main_v227)) (V (rf main_v250)) (V (rf main_v235)))
        (V (rf main_v235)) (V (rf main_v234)) (V (rf main_v223))
      ∧ W (rf main_v273) = vsl 2 (V (rf main_arg9)) slices_S3x128_S1x128_2_0
      ∧ W (rf main_v275) = vsl 2 (V (rf main_arg10)) slices_S3x128_S1x128_2_0
      ∧ W (rf main_v276) = colsum (W (rf main_v271)) := by
  subst hW
  simp only [List.take_succ_cons, List.take_zero]
  after_results_simp
  exact ⟨rfl, rfl, rfl, rfl⟩

/-- Third stretch: the batch statistics, the normalisation and the rectifier. -/
theorem bn4 :
    after (List.drop 30 chunk8) V (rf main_v295)
      = bnS (V (rf main_v271)) (V (rf main_v273)) (V (rf main_v275)) (V (rf main_v276)) := by
  simp only [List.drop_succ_cons, List.drop_zero]
  after_results_simp
  rfl

theorem layer4 :
    after chunk8 (after chunk7 V) (rf main_v295)
      = Cert.Spec.bnR (Cert.Spec.layer (RCtx.ctx (V (rf main_arg1))) (V (rf main_v219))
          (Cert.Spec.sl3 (V (rf main_arg7)) 2) (Cert.Spec.sl2 (V (rf main_arg8)) 2))
          (Cert.Spec.sl2 (V (rf main_arg9)) 2) (Cert.Spec.sl2 (V (rf main_arg10)) 2) := by
  obtain ⟨h1, h2, h3, h4, h5, h6, h7, h8⟩ := ctx4 V _ rfl
  obtain ⟨k1, k2, k3, k4⟩ := pre4 (after chunk7 V) _ rfl
  rw [after_split 30 chunk8, bn4, k4, k1, k2, k3, h1, h2, h3, h4, h5, h6, h7, h8, layer_eq,
    ← wsl_eq 2 _ slices_S3x128x128_S1x128x128_2_0_0, ← vsl_eq 2 (V (rf main_arg8)) slices_S3x128_S1x128_2_0,
    ← vsl_eq 2 (V (rf main_arg9)) slices_S3x128_S1x128_2_0, ← vsl_eq 2 (V (rf main_arg10)) slices_S3x128_S1x128_2_0]

/-- After the last layer: the rows summed per graph, divided by the graph's size, times the last weights, plus the last bias. -/
theorem tailT :
    after chunk10 (after chunk9 V) (rf main_v311)
      = RCtx.tail (V (rf main_arg2)) (V (rf main_arg11)) (V (rf main_arg12))
          (RCtx.poolOf (V (rf main_arg2)) (V (rf main_v295))) := by
  after_results_simp
  rfl

/-- A reference outside a list holding everything the operations write keeps its contents. -/
theorem keeps {l : List (HloOp τ sig (Elt Ideal))} {W : List (Ref sig .tc)}
    (hW : l.Forall fun op => op.writes ⊆ (W.map (Proc.devRef (τ := τ) .tc)).toFinset)
    {r : Ref sig .tc} (hr : r ∉ W) : after l V (no_index (rf r)) = V (rf r) :=
  after_of_writes_sub l V hW hr

/-- The four layers and the tail in turn; no operation writes an argument. -/
theorem result (V₀ : Valuation τ sig (Elt Ideal)) :
    after (ops (F := Ideal)) V₀ (Proc.devRef .tc main_v311)
      = RCtx.tail (V₀ (Proc.devRef .tc main_arg2)) (V₀ (Proc.devRef .tc main_arg11)) (V₀ (Proc.devRef .tc main_arg12))
          (RCtx.poolOf (V₀ (Proc.devRef .tc main_arg2))
            (Cert.Spec.netR (RCtx.ctx (V₀ (Proc.devRef .tc main_arg1))) (V₀ (Proc.devRef .tc main_arg0)) (V₀ (Proc.devRef .tc main_arg3))
              (V₀ (Proc.devRef .tc main_arg4)) (V₀ (Proc.devRef .tc main_arg5)) (V₀ (Proc.devRef .tc main_arg6)) (V₀ (Proc.devRef .tc main_arg7))
              (V₀ (Proc.devRef .tc main_arg8)) (V₀ (Proc.devRef .tc main_arg9)) (V₀ (Proc.devRef .tc main_arg10)))) := by
  rw [after_ops_chunks, tailT, layer4, layer3, layer2, layer1]
  simp (disch := decide) only [keeps _ chunk0_writes, keeps _ chunk1_writes, keeps _ chunk2_writes, keeps _ chunk3_writes,
    keeps _ chunk4_writes, keeps _ chunk5_writes, keeps _ chunk6_writes, keeps _ chunk7_writes, keeps _ chunk8_writes]
  rfl

end Cert.ReferenceIdeal.RVal
end
-- ==== Proof.FinOps.lean ====
import proofs.«401582_j39573828665766_2_alg».proof.Proof.Spec
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

variable {s t si su : Shape} {w : Nat}

theorem isReal_gather (d : GatherDims s si t) (x : s.Idx → EReal) (idx : IVec si w) (hx : IsRealV x) :
    IsRealV (Host.gather d x idx) := fun j => hx (d.operandIdx j idx)

theorem isReal_broadcastInDim (dims : Fin s.rank → Fin t.rank) (h : s.BroadcastsInDim t dims) (x : s.Idx → EReal)
    (hx : IsRealV x) : IsRealV (broadcastInDim t dims h x) := fun _ => hx _

theorem isReal_mulf (a b : FVec Ideal s .f32) (ha : IsRealV a) (hb : IsRealV b) : IsRealV (mulf a b) := by
  intro i
  obtain ⟨r, hr⟩ := ha i
  obtain ⟨q, hq⟩ := hb i
  refine ⟨r * q, ?_⟩
  show a i * b i = _
  rw [hr, hq, EReal.coe_mul]

theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨r, hr⟩ := hf a (Finset.mem_insert_self a S)
    obtain ⟨q, hq⟩ := ih fun j hj => hf j (Finset.mem_insert_of_mem hj)
    exact ⟨r + q, by rw [Finset.sum_insert ha, hr, hq, EReal.coe_add]⟩

theorem isReal_scatterAdd (d : ScatterDims s si su) (x : FVec Ideal s .f32) (idx : IVec si w) (u : FVec Ideal su .f32)
    (hx : IsRealV x) (hu : IsRealV u) : IsRealV (Host.scatterAdd (F := Ideal) d x idx u) := by
  intro i
  obtain ⟨r, hr⟩ := hx i
  obtain ⟨q, hq⟩ := exists_real_sum (Finset.univ.filter fun j => d.resultIdx? j idx = some i) u fun j _ => hu j
  refine ⟨r + q, ?_⟩
  show x i + ∑ j ∈ Finset.univ.filter (fun j => d.resultIdx? j idx = some i), u j = _
  rw [hr, hq, EReal.coe_add]

theorem nonneg_scatterAdd (d : ScatterDims s si su) (x : FVec Ideal s .f32) (idx : IVec si w) (u : FVec Ideal su .f32)
    (hx : ∀ i, 0 ≤ x i) (hu : ∀ j, 0 ≤ u j) : ∀ i, 0 ≤ Host.scatterAdd (F := Ideal) d x idx u i := by
  intro i
  show 0 ≤ x i + ∑ j ∈ Finset.univ.filter (fun j => d.resultIdx? j idx = some i), u j
  exact add_nonneg (hx i) (Finset.sum_nonneg fun j _ => hu j)

theorem broadcast_constant_apply (dims : Fin s.rank → Fin t.rank) (h : s.BroadcastsInDim t dims) (b : BitVec 32) (j : t.Idx) :
    broadcastInDim t dims h (constant (F := Ideal) s .f32 b) j = Ideal.ofBits .f32 b := rfl

theorem ofBits_one_f32 : Ideal.ofBits .f32 0x3F800000#32 = 1 := by
  simp [Ideal.ofBits, Ideal.ieee]
  rw [← EReal.coe_mul, show (8388608 : ℝ) * (2 ^ 23)⁻¹ = 1 by norm_num, EReal.coe_one]

theorem const_zero_apply (dims : Fin s.rank → Fin t.rank) (h : s.BroadcastsInDim t dims) (j : t.Idx) :
    broadcastInDim t dims h (constant (F := Ideal) s .f32 0x00000000#32) j = 0 := by
  rw [broadcast_constant_apply, Ideal.ofBits_zero_f32]

theorem const_one_apply (dims : Fin s.rank → Fin t.rank) (h : s.BroadcastsInDim t dims) (j : t.Idx) :
    broadcastInDim t dims h (constant (F := Ideal) s .f32 0x3F800000#32) j = 1 := by
  rw [broadcast_constant_apply, ofBits_one_f32]

theorem isReal_const_zero (dims : Fin s.rank → Fin t.rank) (h : s.BroadcastsInDim t dims) :
    IsRealV (broadcastInDim t dims h (constant (F := Ideal) s .f32 0x00000000#32)) := fun j => ⟨0, by rw [const_zero_apply, EReal.coe_zero]⟩

theorem isReal_rsqrt_of_pos (x : FVec Ideal s .f32) (hx : ∀ i, ∃ r : ℝ, 0 < r ∧ x i = (r : EReal)) :
    IsRealV (Host.rsqrt x) := by
  intro i
  obtain ⟨r, hr, hxi⟩ := hx i
  refine ⟨(Real.sqrt r)⁻¹, ?_⟩
  show Ideal.rsqrt (x i) = _
  rw [hxi, Ideal.rsqrt_coe, if_neg (not_lt.mpr hr.le), if_neg hr.ne']

theorem isReal_rsqrt_of_one_le (x : FVec Ideal s .f32) (hx : ∀ i, ∃ r : ℝ, 1 ≤ r ∧ x i = (r : EReal)) :
    IsRealV (Host.rsqrt x) :=
  isReal_rsqrt_of_pos x fun i => by
    obtain ⟨r, hr, hxi⟩ := hx i
    exact ⟨r, lt_of_lt_of_le one_pos hr, hxi⟩

theorem isReal_dinv (d : ScatterDims s si su) (z : FVec Ideal s .f32) (idx : IVec si w) (o : FVec Ideal su .f32)
    (o' : FVec Ideal s .f32) (hz : ∀ i, z i = 0) (h1 : ∀ j, o j = 1) (h1' : ∀ i, o' i = 1) :
    IsRealV (Host.rsqrt (addf (Host.scatterAdd (F := Ideal) d z idx o) o')) := by
  apply isReal_rsqrt_of_one_le
  intro i
  have hzR : IsRealV z := fun i => ⟨0, by rw [hz i, EReal.coe_zero]⟩
  have hoR : IsRealV o := fun j => ⟨1, by rw [h1 j, EReal.coe_one]⟩
  obtain ⟨r, hr⟩ := isReal_scatterAdd d z idx o hzR hoR i
  have hnn : 0 ≤ Host.scatterAdd (F := Ideal) d z idx o i :=
    nonneg_scatterAdd d z idx o (fun i => (hz i).ge) (fun j => by rw [h1 j]; exact zero_le_one) i
  rw [hr] at hnn
  have hr0 : 0 ≤ r := EReal.coe_nonneg.mp hnn
  refine ⟨r + 1, by linarith, ?_⟩
  show Host.scatterAdd (F := Ideal) d z idx o i + o' i = _
  rw [hr, h1' i, EReal.coe_add, EReal.coe_one]

end Cert.Spec

end
-- ==== Proof.PoolAlg.lean ====
import proofs.«401582_j39573828665766_2_alg».proof.ReferenceIdeal
import proofs.«401582_j39573828665766_2_alg».proof.Proof.Spec
import Idealize.ShloMosaic.PureOps.Ideal
import Idealize.ShloMosaic.Lib.ValueIdx

noncomputable section

namespace Cert.Spec

open Idealize.ShloMosaic Idealize.ShloMosaic.ValueIdx
open Cert.ReferenceIdeal

variable [Cert.ReferenceIdeal.Facts]

theorem toInt_eq_natCast_iff (w : BitVec 32) (q : Nat) (hq : q < 512) :
    w.toInt = (q : Int) ↔ w = BitVec.ofNat 32 q := by
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    split <;> omega

theorem scatter_start0 (n : Fin 50000) (c : Fin 128) (idx : IVec S50000x1 32) :
    scatter_S512x128_S50000x1_S50000x128_1_0_0_1.start (ix2 n c) idx 0 = (idx (ix2 n 0)).toInt := by
  have h0 : (0 : Fin S512x128.rank) ∈ scatter_S512x128_S50000x1_S50000x128_1_0_0_1.scatterDimsToOperandDims :=
    (by decide : (0 : Fin 2) ∈ ([0] : List (Fin 2)))
  unfold ScatterDims.start
  rw [dif_pos h0]
  congr 2
  funext b
  match b with
  | ⟨0, _⟩ => rfl
  | ⟨1, _⟩ => rfl

theorem scatter_start1 (n : Fin 50000) (c : Fin 128) (idx : IVec S50000x1 32) :
    scatter_S512x128_S50000x1_S50000x128_1_0_0_1.start (ix2 n c) idx 1 = 0 := by
  have h1 : (1 : Fin S512x128.rank) ∉ scatter_S512x128_S50000x1_S50000x128_1_0_0_1.scatterDimsToOperandDims :=
    (by decide : (1 : Fin 2) ∉ ([0] : List (Fin 2)))
  unfold ScatterDims.start
  rw [dif_neg h1]

theorem scatter_window0 (n : Fin 50000) (c : Fin 128) :
    scatter_S512x128_S50000x1_S50000x128_1_0_0_1.window (ix2 n c) 0 = 0 := by
  have h0 : (0 : Fin S512x128.rank) ∉ scatter_S512x128_S50000x1_S50000x128_1_0_0_1.sKept :=
    (by decide : (0 : Fin 2) ∉ Shape.kept S512x128 [0])
  unfold ScatterDims.window
  rw [dif_neg h0]

theorem scatter_window1 (n : Fin 50000) (c : Fin 128) :
    scatter_S512x128_S50000x1_S50000x128_1_0_0_1.window (ix2 n c) 1 = c.val := by
  have h1 : (1 : Fin S512x128.rank) ∈ scatter_S512x128_S50000x1_S50000x128_1_0_0_1.sKept :=
    (by decide : (1 : Fin 2) ∈ Shape.kept S512x128 [0])
  unfold ScatterDims.window
  rw [dif_pos h1]
  rfl

theorem scatter_resultIdx?_eq_some_iff (n : Fin 50000) (c : Fin 128) (idx : IVec S50000x1 32)
    (q : Fin 512) (c' : Fin 128) :
    scatter_S512x128_S50000x1_S50000x128_1_0_0_1.resultIdx? (ix2 n c) idx = some (ix2 q c') ↔
      (idx (ix2 n 0)).toInt = (q.val : Int) ∧ c = c' := by
  have hq := q.isLt
  have hc := c.isLt
  have hs0 : S512x128.size 0 = 512 := rfl
  have hs1 : S512x128.size 1 = 128 := rfl
  unfold ScatterDims.resultIdx?
  split
  · rename_i h
    have h0 := h 0
    have h1 := h 1
    rw [scatter_start0, scatter_window0, hs0] at h0
    rw [scatter_start1, scatter_window1, hs1] at h1
    rw [Option.some.injEq]
    constructor
    · intro hi
      have e0 := congrArg Fin.val (congrFun hi 0)
      have e1 := congrArg Fin.val (congrFun hi 1)
      simp only [scatter_start0, scatter_window0, scatter_start1, scatter_window1] at e0 e1
      refine ⟨?_, Fin.ext ?_⟩
      · change _ = q.val at e0; omega
      · change _ = c'.val at e1; omega
    · rintro ⟨hq', rfl⟩
      funext a
      match a with
      | ⟨0, _⟩ =>
        apply Fin.ext
        show (scatter_S512x128_S50000x1_S50000x128_1_0_0_1.start (ix2 n c) idx 0
          + (scatter_S512x128_S50000x1_S50000x128_1_0_0_1.window (ix2 n c) 0 : Nat)).toNat = q.val
        rw [scatter_start0, scatter_window0]; omega
      | ⟨1, _⟩ =>
        apply Fin.ext
        show (scatter_S512x128_S50000x1_S50000x128_1_0_0_1.start (ix2 n c) idx 1
          + (scatter_S512x128_S50000x1_S50000x128_1_0_0_1.window (ix2 n c) 1 : Nat)).toNat = c.val
        rw [scatter_start1, scatter_window1]; omega
  · rename_i h
    constructor
    · intro hi; exact absurd hi (by simp)
    · rintro ⟨hq', rfl⟩
      exfalso
      apply h
      intro a
      match a with
      | ⟨0, _⟩ =>
        show 0 ≤ scatter_S512x128_S50000x1_S50000x128_1_0_0_1.start (ix2 n c) idx 0
            + (scatter_S512x128_S50000x1_S50000x128_1_0_0_1.window (ix2 n c) 0 : Nat) ∧
          scatter_S512x128_S50000x1_S50000x128_1_0_0_1.start (ix2 n c) idx 0
            + (scatter_S512x128_S50000x1_S50000x128_1_0_0_1.window (ix2 n c) 0 : Nat) < ((512 : Nat) : Int)
        rw [scatter_start0, scatter_window0]; omega
      | ⟨1, _⟩ =>
        show 0 ≤ scatter_S512x128_S50000x1_S50000x128_1_0_0_1.start (ix2 n c) idx 1
            + (scatter_S512x128_S50000x1_S50000x128_1_0_0_1.window (ix2 n c) 1 : Nat) ∧
          scatter_S512x128_S50000x1_S50000x128_1_0_0_1.start (ix2 n c) idx 1
            + (scatter_S512x128_S50000x1_S50000x128_1_0_0_1.window (ix2 n c) 1 : Nat) < ((128 : Nat) : Int)
        rw [scatter_start1, scatter_window1]; omega

theorem poolCol_eq_scatterAdd (A : SND.Idx → EReal) (batch : SN1.Idx → BitVec 32) (z : SGD.Idx → EReal)
    (hz : ∀ i, z i = 0) :
    poolCol A batch = Host.scatterAdd (F := Ideal) (φ := .f32) scatter_S512x128_S50000x1_S50000x128_1_0_0_1 z batch A := by
  funext i
  obtain ⟨q, c', rfl⟩ : ∃ (q : Fin 512) (c' : Fin 128), i = ix2 q c' := ⟨i 0, i 1, eq_ix2 i⟩
  show _ = Ideal.hostScatterAdd scatter_S512x128_S50000x1_S50000x128_1_0_0_1 z batch A (ix2 q c')
  unfold Ideal.hostScatterAdd
  rw [hz, zero_add, Finset.sum_filter, sum_idx2]
  show (∑ n : Fin 50000, (if batch (ix2 n 0) = BitVec.ofNat 32 q.val then (1 : EReal) else 0) * A (ix2 n c')) = _
  apply Finset.sum_congr rfl
  intro n _
  simp only [scatter_resultIdx?_eq_some_iff, toInt_eq_natCast_iff _ _ q.isLt]
  by_cases hb : batch (ix2 n 0) = BitVec.ofNat 32 q.val
  · simp only [hb, true_and, if_true, one_mul]
    rw [Finset.sum_ite_eq' Finset.univ c' (fun b => A (ix2 n b))]
    simp
  · simp only [hb, false_and, if_false, zero_mul, Finset.sum_const_zero]

end Cert.Spec

end
-- ==== Proof.CtxFacts.lean ====
import proofs.«401582_j39573828665766_2_alg».proof.Proof.RCtx
import proofs.«401582_j39573828665766_2_alg».proof.Proof.FinOps
import proofs.«401582_j39573828665766_2_alg».proof.Proof.PoolAlg
import proofs.«401582_j39573828665766_2_alg».proof.Proof.Spec
import Idealize.ShloMosaic.PureOps.Ideal
import Idealize.ShloMosaic.Lib.ValueIdx

noncomputable section

namespace Cert.ReferenceIdeal.RCtx

open Idealize.ShloMosaic Idealize.ShloMosaic.ValueIdx
open Cert.ReferenceIdeal Cert.ReferenceIdeal.Facts₀

variable [Cert.ReferenceIdeal.Facts]

theorem isReal_dinv_ctx (e : IVec S2x800000 32) : Cert.Spec.IsRealV (RCtx.dinv e) := by
  unfold RCtx.dinv RCtx.dinvOf
  exact Cert.Spec.isReal_dinv _ _ _ _ _ (Cert.Spec.const_zero_apply _ _) (Cert.Spec.const_one_apply _ _)
    (Cert.Spec.const_one_apply _ _)

theorem isReal_norm_ctx (e : IVec S2x800000 32) : Cert.Spec.IsRealV (RCtx.norm e) := by
  unfold RCtx.norm RCtx.normOf
  apply Cert.Spec.isReal_mulf
  · exact Cert.Spec.isReal_gather _ _ _ (isReal_dinv_ctx e)
  · exact Cert.Spec.isReal_gather _ _ _ (isReal_dinv_ctx e)

theorem isReal_agg_ctx (e : IVec S2x800000 32) (h : FVec Ideal S50000x128 .f32) (hh : Cert.Spec.IsRealV h) :
    Cert.Spec.IsRealV (RCtx.agg e h) := by
  unfold RCtx.agg RCtx.aggOf
  apply Cert.Spec.isReal_scatterAdd
  · exact Cert.Spec.isReal_const_zero _ _
  · apply Cert.Spec.isReal_mulf
    · exact Cert.Spec.isReal_gather _ _ _ hh
    · apply Cert.Spec.isReal_broadcastInDim
      apply Cert.Spec.isReal_broadcastInDim
      exact isReal_norm_ctx e

theorem ctx_real (e : IVec S2x800000 32) :
    Cert.Spec.IsRealV (RCtx.ctx e).dinv ∧ ∀ h, Cert.Spec.IsRealV h → Cert.Spec.IsRealV ((RCtx.ctx e).agg h) :=
  ⟨isReal_dinv_ctx e, fun h hh => isReal_agg_ctx e h hh⟩

theorem broadcast_col_eq_colOf (batch : IVec S50000 32) :
    broadcastInDim S50000x1 ![0] bcast_S50000_S50000x1_0 batch = Cert.Spec.colOf batch := by
  funext j
  show batch _ = batch _
  congr 1
  funext a
  match a with
  | ⟨0, _⟩ => rfl

theorem poolOf_eq (batch : IVec S50000 32) (A : FVec Ideal S50000x128 .f32) :
    RCtx.poolOf batch A = Cert.Spec.poolCol A (Cert.Spec.colOf batch) := by
  unfold RCtx.poolOf
  rw [broadcast_col_eq_colOf]
  exact (Cert.Spec.poolCol_eq_scatterAdd A (Cert.Spec.colOf batch) _ (Cert.Spec.const_zero_apply _ _)).symm

end Cert.ReferenceIdeal.RCtx

end
-- ==== Proof.Fin.lean ====
import proofs.«401582_j39573828665766_2_alg».proof.Proof.Spec
import proofs.«401582_j39573828665766_2_alg».proof.Proof.Alg
import Mathlib.Data.EReal.Operations
import Mathlib.Algebra.BigOperators.Group.Finset.Defs
import Mathlib.Tactic.Linarith

noncomputable section

namespace Cert.Spec

open Idealize.ShloMosaic Idealize.ShloMosaic.ValueIdx

theorem isR_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem isR_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem isR_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

theorem isR_max_zero {a : EReal} (ha : ∃ r : ℝ, a = (r : EReal)) : ∃ r : ℝ, max a 0 = (r : EReal) := by
  rcases max_choice a 0 with h | h
  · rw [h]; exact ha
  · rw [h]; exact ⟨0, EReal.coe_zero.symm⟩

theorem isR_sum {ι : Type} (s : Finset ι) (f : ι → EReal) (h : ∀ k ∈ s, ∃ r : ℝ, f k = (r : EReal)) :
    ∃ r : ℝ, ∑ k ∈ s, f k = (r : EReal) :=
  Finset.sum_induction f (fun a => ∃ r : ℝ, a = (r : EReal)) (fun _ _ => isR_add) ⟨0, EReal.coe_zero.symm⟩ h

theorem isR_rsqrt_pos {r : ℝ} (hr : 0 < r) : ∃ q : ℝ, Ideal.rsqrt (r : EReal) = (q : EReal) := by
  rw [Ideal.rsqrt_coe, if_neg (not_lt.mpr hr.le), if_neg hr.ne']
  exact ⟨_, rfl⟩

theorem isReal_mm (X : SND.Idx → EReal) (W : SDD.Idx → EReal) (hX : IsRealV X) (hW : IsRealV W) :
    IsRealV (mm X W) := by
  intro i
  exact isR_sum _ _ fun k _ => isR_mul (hX _) (hW _)

theorem isReal_pre (agg h : SND.Idx → EReal) (dinv : SN.Idx → EReal) (b : SD.Idx → EReal)
    (ha : IsRealV agg) (hh : IsRealV h) (hd : IsRealV dinv) (hb : IsRealV b) : IsRealV (pre agg h dinv b) := by
  intro i
  exact isR_add (isR_add (ha i) (isR_mul (hh i) (isR_mul (hd _) (hd _)))) (hb _)

theorem isReal_sl3 (Wc : S3DD.Idx → EReal) (h : IsRealV Wc) (k : Fin 3) : IsRealV (sl3 Wc k) :=
  fun _ => h _

theorem isReal_sl2 (bc : S3D.Idx → EReal) (h : IsRealV bc) (k : Fin 3) : IsRealV (sl2 bc k) :=
  fun _ => h _

theorem isReal_bnR (P : SND.Idx → EReal) (g be : SD.Idx → EReal) (hP : IsRealV P) (hg : IsRealV g)
    (hbe : IsRealV be) : IsRealV (bnR P g be) := by
  intro i
  obtain ⟨e, he, hee⟩ := eps_pos
  obtain ⟨v, hv, hvv⟩ := varR_real_nonneg P hP (ix1 (i 1))
  have hrs : ∃ r : ℝ, Ideal.rsqrt (varR P (ix1 (i 1)) + eps) = (r : EReal) := by
    rw [hvv, hee, ← EReal.coe_add]
    exact isR_rsqrt_pos (by linarith)
  exact isR_max_zero (isR_add (isR_mul (isR_mul (hg _) (isR_sub (hP i) (muV_real P hP _))) hrs) (hbe _))

theorem isReal_layer (κ : Ctx) (hd : IsRealV κ.dinv) (hagg : ∀ h, IsRealV h → IsRealV (κ.agg h))
    (X : SND.Idx → EReal) (W : SDD.Idx → EReal) (b : SD.Idx → EReal)
    (hX : IsRealV X) (hW : IsRealV W) (hb : IsRealV b) : IsRealV (layer κ X W b) :=
  isReal_pre _ _ _ _ (hagg _ (isReal_mm X W hX hW)) (isReal_mm X W hX hW) hd hb

theorem net_eq (κ : Ctx) (hd : IsRealV κ.dinv) (hagg : ∀ h, IsRealV h → IsRealV (κ.agg h))
    (x : SND.Idx → EReal) (W1 : SDD.Idx → EReal) (b1 g1 be1 : SD.Idx → EReal)
    (Wc : S3DD.Idx → EReal) (bc gc bec : S3D.Idx → EReal)
    (hx : IsRealV x) (hW1 : IsRealV W1) (hb1 : IsRealV b1) (hg1 : IsRealV g1) (hbe1 : IsRealV be1)
    (hWc : IsRealV Wc) (hbc : IsRealV bc) (hgc : IsRealV gc) (hbec : IsRealV bec) :
    netK κ x W1 b1 g1 be1 Wc bc gc bec = netR κ x W1 b1 g1 be1 Wc bc gc bec := by
  have p1 : IsRealV (layer κ x W1 b1) := isReal_layer κ hd hagg x W1 b1 hx hW1 hb1
  have a1 : IsRealV (bnR (layer κ x W1 b1) g1 be1) := isReal_bnR _ _ _ p1 hg1 hbe1
  have p2 := isReal_layer κ hd hagg _ (sl3 Wc 0) (sl2 bc 0) a1 (isReal_sl3 Wc hWc 0) (isReal_sl2 bc hbc 0)
  have a2 := isReal_bnR _ (sl2 gc 0) (sl2 bec 0) p2 (isReal_sl2 gc hgc 0) (isReal_sl2 bec hbec 0)
  have p3 := isReal_layer κ hd hagg _ (sl3 Wc 1) (sl2 bc 1) a2 (isReal_sl3 Wc hWc 1) (isReal_sl2 bc hbc 1)
  have a3 := isReal_bnR _ (sl2 gc 1) (sl2 bec 1) p3 (isReal_sl2 gc hgc 1) (isReal_sl2 bec hbec 1)
  have p4 := isReal_layer κ hd hagg _ (sl3 Wc 2) (sl2 bc 2) a3 (isReal_sl3 Wc hWc 2) (isReal_sl2 bc hbc 2)
  unfold netK netR
  rw [bnK_eq_bnR _ p1, bnK_eq_bnR _ p2, bnK_eq_bnR _ p3, bnK_eq_bnR _ p4]

end Cert.Spec

end
-- ==== Proof.Bridge.lean ====
import proofs.«401582_j39573828665766_2_alg».proof.Proof.KCtx
import proofs.«401582_j39573828665766_2_alg».proof.Proof.RCtx
import proofs.«401582_j39573828665766_2_alg».proof.Proof.CtxFacts
import proofs.«401582_j39573828665766_2_alg».proof.Proof.Fin

noncomputable section

namespace Cert.Bridge

open Idealize.ShloMosaic Cert.Spec

variable [Cert.KernelIdeal.Facts] [Cert.ReferenceIdeal.Facts]

theorem ctx_eq (e : IVec Cert.ReferenceIdeal.S2x800000 32) :
    Cert.KernelIdeal.KCtx.ctx e = Cert.ReferenceIdeal.RCtx.ctx e := rfl

theorem tail_eq (batch : IVec Cert.ReferenceIdeal.S50000 32) (Wl : FVec Ideal Cert.ReferenceIdeal.S128x10 .f32)
    (bl : FVec Ideal Cert.ReferenceIdeal.S10 .f32) (sums : FVec Ideal Cert.ReferenceIdeal.S512x128 .f32) :
    Cert.KernelIdeal.KCtx.tail batch Wl bl sums = Cert.ReferenceIdeal.RCtx.tail batch Wl bl sums := rfl

theorem value_eq (e : IVec Cert.ReferenceIdeal.S2x800000 32) (batch : IVec Cert.ReferenceIdeal.S50000 32)
    (Wl : FVec Ideal Cert.ReferenceIdeal.S128x10 .f32) (bl : FVec Ideal Cert.ReferenceIdeal.S10 .f32)
    (x : SND.Idx → EReal) (W1 : SDD.Idx → EReal) (b1 g1 be1 : SD.Idx → EReal)
    (Wc : S3DD.Idx → EReal) (bc gc bec : S3D.Idx → EReal)
    (hx : IsRealV x) (hW1 : IsRealV W1) (hb1 : IsRealV b1) (hg1 : IsRealV g1) (hbe1 : IsRealV be1)
    (hWc : IsRealV Wc) (hbc : IsRealV bc) (hgc : IsRealV gc) (hbec : IsRealV bec) :
    Cert.ReferenceIdeal.RCtx.tail batch Wl bl
        (Cert.ReferenceIdeal.RCtx.poolOf batch (netR (Cert.ReferenceIdeal.RCtx.ctx e) x W1 b1 g1 be1 Wc bc gc bec))
      = Cert.KernelIdeal.KCtx.tail batch Wl bl
        (poolCol (netK (Cert.KernelIdeal.KCtx.ctx e) x W1 b1 g1 be1 Wc bc gc bec) (colOf batch)) := by
  rw [Cert.ReferenceIdeal.RCtx.poolOf_eq, ctx_eq e,
    net_eq (Cert.ReferenceIdeal.RCtx.ctx e) (Cert.ReferenceIdeal.RCtx.ctx_real e).1 (Cert.ReferenceIdeal.RCtx.ctx_real e).2
      x W1 b1 g1 be1 Wc bc gc bec hx hW1 hb1 hg1 hbe1 hWc hbc hgc hbec]
  exact (tail_eq batch Wl bl _).symm

end Cert.Bridge

end
-- ==== Proof.PreFin.lean ====
import proofs.«401582_j39573828665766_2_alg».proof.Defs
import proofs.«401582_j39573828665766_2_alg».proof.Proof.Gen.Pre_finite_inputs
import proofs.«401582_j39573828665766_2_alg».proof.Proof.Spec
import Idealize.ShloMosaic.Lib.ReduceAll

noncomputable section

namespace Cert.PreFin

open Idealize.ShloMosaic Idealize.SL.Sem
open Cert.Pre_finite_inputs (S_)

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change BitVec.ofBool (decide (max x (-x) < Ideal.ofBits .f32 0x7F800000#32)) = 1#1 at h
  rw [inf_eq_top] at h
  induction x using EReal.rec with
  | bot => simp at h
  | coe r => exact ⟨r, rfl⟩
  | top => simp at h

theorem isRealV_of_all {s : Shape} {axes : List (Fin s.rank)} (a : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
      (cmpf .olt (Host.absf a) (broadcastInDim s ![] bc (constant (F := Ideal) S_ .f32 0x7F800000#32))) init hr hu j = 1#1) :
    Cert.Spec.IsRealV a := fun i =>
  real_of_abs_lt_inf (a i) (Host.reduce_andi_all _ init hr hu j e i)

variable [hPre : Cert.Pre_finite_inputs.Facts]
variable (m : (ℓ : Loc Cert.KernelIdeal.nD Cert.KernelIdeal.τ Cert.KernelIdeal.sig) → Buf (Elt Ideal) ℓ)

theorem real_args (h : Cert.Pre_KernelIdeal m) (c : Dev Cert.KernelIdeal.nD) :
    Cert.Spec.IsRealV (m ((c.tc : Thread Cert.KernelIdeal.nD Cert.KernelIdeal.τ).loc Cert.KernelIdeal.main_arg0))
    ∧ Cert.Spec.IsRealV (m ((c.tc : Thread Cert.KernelIdeal.nD Cert.KernelIdeal.τ).loc Cert.KernelIdeal.main_arg3))
    ∧ Cert.Spec.IsRealV (m ((c.tc : Thread Cert.KernelIdeal.nD Cert.KernelIdeal.τ).loc Cert.KernelIdeal.main_arg4))
    ∧ Cert.Spec.IsRealV (m ((c.tc : Thread Cert.KernelIdeal.nD Cert.KernelIdeal.τ).loc Cert.KernelIdeal.main_arg5))
    ∧ Cert.Spec.IsRealV (m ((c.tc : Thread Cert.KernelIdeal.nD Cert.KernelIdeal.τ).loc Cert.KernelIdeal.main_arg6))
    ∧ Cert.Spec.IsRealV (m ((c.tc : Thread Cert.KernelIdeal.nD Cert.KernelIdeal.τ).loc Cert.KernelIdeal.main_arg7))
    ∧ Cert.Spec.IsRealV (m ((c.tc : Thread Cert.KernelIdeal.nD Cert.KernelIdeal.τ).loc Cert.KernelIdeal.main_arg8))
    ∧ Cert.Spec.IsRealV (m ((c.tc : Thread Cert.KernelIdeal.nD Cert.KernelIdeal.τ).loc Cert.KernelIdeal.main_arg9))
    ∧ Cert.Spec.IsRealV (m ((c.tc : Thread Cert.KernelIdeal.nD Cert.KernelIdeal.τ).loc Cert.KernelIdeal.main_arg10)) := by
  have e := congrFun (h c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h3⟩, h4⟩, h5⟩, h6⟩, h7⟩, h8⟩, h9⟩, h10⟩, -⟩, -⟩ := e
  exact ⟨isRealV_of_all _ _ _ _ _ _ h0, isRealV_of_all _ _ _ _ _ _ h3, isRealV_of_all _ _ _ _ _ _ h4,
    isRealV_of_all _ _ _ _ _ _ h5, isRealV_of_all _ _ _ _ _ _ h6, isRealV_of_all _ _ _ _ _ _ h7,
    isRealV_of_all _ _ _ _ _ _ h8, isRealV_of_all _ _ _ _ _ _ h9, isRealV_of_all _ _ _ _ _ _ h10⟩

end Cert.PreFin

end
-- ==== Proof.lean ====
import proofs.«401582_j39573828665766_2_alg».proof.Defs
import proofs.«401582_j39573828665766_2_alg».proof.Proof.Gen.Kernel
import proofs.«401582_j39573828665766_2_alg».proof.Proof.Gen.Kernel.Skeleton
import proofs.«401582_j39573828665766_2_alg».proof.Proof.Gen.Kernel.Launch
import proofs.«401582_j39573828665766_2_alg».proof.Proof.Gen.Kernel.Points
import proofs.«401582_j39573828665766_2_alg».proof.Proof.Gen.Kernel.Frame
import proofs.«401582_j39573828665766_2_alg».proof.Proof.Gen.KernelIdeal
import proofs.«401582_j39573828665766_2_alg».proof.Proof.Gen.KernelIdeal.Skeleton
import proofs.«401582_j39573828665766_2_alg».proof.Proof.Gen.KernelIdeal.Launch
import proofs.«401582_j39573828665766_2_alg».proof.Proof.Gen.KernelIdeal.Points
import proofs.«401582_j39573828665766_2_alg».proof.Proof.Gen.KernelIdeal.Frame
import proofs.«401582_j39573828665766_2_alg».proof.Proof.Gen.ReferenceIdeal
import proofs.«401582_j39573828665766_2_alg».proof.Proof.Gen.Pre_finite_inputs
import Idealize.ShloMosaic.Adequacy
import Idealize.ShloMosaic.Init
import proofs.«401582_j39573828665766_2_alg».proof.Proof.KRun
import proofs.«401582_j39573828665766_2_alg».proof.Proof.KVal
import proofs.«401582_j39573828665766_2_alg».proof.Proof.RRun
import proofs.«401582_j39573828665766_2_alg».proof.Proof.RVal
import proofs.«401582_j39573828665766_2_alg».proof.Proof.Bridge
import proofs.«401582_j39573828665766_2_alg».proof.Proof.PreFin

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' hpre hagree
  refine ⟨fun c => Cert.KernelIdeal.Gen.W19 (F := Ideal) m ρ c (Proc.devRef .tc Cert.KernelIdeal.main_v0),
    Cert.KernelIdeal.Gen.run_named m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12⟩ := hagree c
  have e : ∀ (b : Ref Cert.ReferenceIdeal.sig .tc) {v}, m' ((c.tc : Thread Cert.ReferenceIdeal.nD Cert.ReferenceIdeal.τ).loc b) = v →
      StableHlo.launchContents m' c (Proc.devRef .tc b) = v := fun _ _ h => h
  rw [Cert.ReferenceIdeal.RVal.result (StableHlo.launchContents m' c), e _ h0, e _ h1, e _ h2, e _ h3, e _ h4, e _ h5, e _ h6,
    e _ h7, e _ h8, e _ h9, e _ h10, e _ h11, e _ h12]
  refine Eq.trans ?_ (Cert.KernelIdeal.KVal.result m ρ c).symm
  obtain ⟨r0, r3, r4, r5, r6, r7, r8, r9, r10⟩ := Cert.PreFin.real_args m hpre c
  exact Cert.Bridge.value_eq _ _ _ _ _ _ _ _ _ _ _ _ _ r0 r3 r4 r5 r6 r7 r8 r9 r10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
